-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4 : Shape := ⟨2, ![1024, 4]⟩
abbrev S32000x1024 : Shape := ⟨2, ![32000, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S32000 : Shape := ⟨1, ![32000]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S32000 : S_.BroadcastsInDim S32000 (![] : Fin 0 → Fin S32000.rank)
  reducesTo_S32000_S_d0 : S32000.ReducesTo [0] S_
  bcast_S_S1024x4 : S_.BroadcastsInDim S1024x4 (![] : Fin 0 → Fin S1024x4.rank)
  reducesTo_S1024x4_S_d0_1 : S1024x4.ReducesTo [0, 1] S_

variable [Facts]

def fn_part5 {F : FTy → Type} [FloatOps F] (main_v82 : IVec S_ 1) (main_v84 : IVec S1024x4 1) : IVec S_ 1 :=
  let main_c_33 : IVec S_ 1 := constantI S_ 1 1#1
  let main_v85 : IVec S_ 1 := (fun x v => Host.reduce IntOp.andi x v reducesTo_S1024x4_S_d0_1 h_S_) main_v84 main_c_33
  let main_v86 : IVec S_ 1 := andi main_v82 main_v85
  main_v86

def fn_part4 {F : FTy → Type} [FloatOps F] (main_arg0 : IVec S1024x4 32) (main_arg15 : FVec F S32000x1024 .f32) (main_arg16 : FVec F S32000 .f32) (main_v63 : IVec S_ 1) (main_v67 : IVec S_ 1) : IVec S_ 1 :=
  let main_v68 : IVec S_ 1 := andi main_v63 main_v67
  let main_v69 : FVec F S32000x1024 .f32 := Host.absf main_arg15
  let main_cst_26 : FVec F S_ .f32 := constant S_ .f32 0x7F800000#32
  let main_v70 : FVec F S32000x1024 .f32 := broadcastInDim S32000x1024 ![] bcast_S_S32000x1024 main_cst_26
  let main_v71 : IVec S32000x1024 1 := cmpf .olt main_v69 main_v70
  let main_c_27 : IVec S_ 1 := constantI S_ 1 1#1
  let main_v72 : IVec S_ 1 := (fun x v => Host.reduce IntOp.andi x v reducesTo_S32000x1024_S_d0_1 h_S_) main_v71 main_c_27
  let main_v73 : IVec S_ 1 := andi main_v68 main_v72
  let main_v74 : FVec F S32000 .f32 := Host.absf main_arg16
  let main_cst_28 : FVec F S_ .f32 := constant S_ .f32 0x7F800000#32
  let main_v75 : FVec F S32000 .f32 := broadcastInDim S32000 ![] bcast_S_S32000 main_cst_28
  let main_v76 : IVec S32000 1 := cmpf .olt main_v74 main_v75
  let main_c_29 : IVec S_ 1 := constantI S_ 1 1#1
  let main_v77 : IVec S_ 1 := (fun x v => Host.reduce IntOp.andi x v reducesTo_S32000_S_d0 h_S_) main_v76 main_c_29
  let main_v78 : IVec S_ 1 := andi main_v73 main_v77
  let main_c_30 : IVec S_ 32 := constantI S_ 32 4294935296#32
  let main_v79 : IVec S1024x4 32 := broadcastInDim S1024x4 ![] bcast_S_S1024x4 main_c_30
  let main_v80 : IVec S1024x4 1 := cmpi .sge main_arg0 main_v79
  let main_c_31 : IVec S_ 1 := constantI S_ 1 1#1
  let main_v81 : IVec S_ 1 := (fun x v => Host.reduce IntOp.andi x v reducesTo_S1024x4_S_d0_1 h_S_) main_v80 main_c_31
  let main_v82 : IVec S_ 1 := andi main_v78 main_v81
  let main_c_32 : IVec S_ 32 := constantI S_ 32 32000#32
  let main_v83 : IVec S1024x4 32 := broadcastInDim S1024x4 ![] bcast_S_S1024x4 main_c_32
  let main_v84 : IVec S1024x4 1 := cmpi .slt main_arg0 main_v83
  fn_part5 (F := F) main_v82 main_v84

def fn_part3 {F : FTy → Type} [FloatOps F] (main_arg0 : IVec S1024x4 32) (main_arg12 : FVec F S1024 .f32) (main_arg13 : FVec F S1024 .f32) (main_arg14 : FVec F S1024 .f32) (main_arg15 : FVec F S32000x1024 .f32) (main_arg16 : FVec F S32000 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg12
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg13
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg14
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg0 main_arg15 main_arg16 main_v63 main_v67

def fn_part2 {F : FTy → Type} [FloatOps F] (main_arg0 : IVec S1024x4 32) (main_arg8 : FVec F S4096 .f32) (main_arg9 : FVec F S1024x4096 .f32) (main_arg10 : FVec F S1024 .f32) (main_arg11 : FVec F S1024 .f32) (main_arg12 : FVec F S1024 .f32) (main_arg13 : FVec F S1024 .f32) (main_arg14 : FVec F S1024 .f32) (main_arg15 : FVec F S32000x1024 .f32) (main_arg16 : FVec F S32000 .f32) (main_v33 : IVec S_ 1) : IVec S_ 1 :=
  let main_v34 : FVec F S4096 .f32 := Host.absf main_arg8
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S1024x4096 .f32 := Host.absf main_arg9
  let main_cst_14 : FVec F S_ .f32 := constant S_ .f32 0x7F800000#32
  let main_v40 : FVec F S1024x4096 .f32 := broadcastInDim S1024x4096 ![] bcast_S_S1024x4096 main_cst_14
  let main_v41 : IVec S1024x4096 1 := cmpf .olt main_v39 main_v40
  let main_c_15 : IVec S_ 1 := constantI S_ 1 1#1
  let main_v42 : IVec S_ 1 := (fun x v => Host.reduce IntOp.andi x v reducesTo_S1024x4096_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_arg0 main_arg12 main_arg13 main_arg14 main_arg15 main_arg16 main_v48 main_v49 main_v50

def fn_part1 {F : FTy → Type} [FloatOps F] (main_arg0 : IVec S1024x4 32) (main_arg5 : FVec F S1024x1024 .f32) (main_arg6 : FVec F S1024 .f32) (main_arg7 : FVec F S4096x1024 .f32) (main_arg8 : FVec F S4096 .f32) (main_arg9 : FVec F S1024x4096 .f32) (main_arg10 : FVec F S1024 .f32) (main_arg11 : FVec F S1024 .f32) (main_arg12 : FVec F S1024 .f32) (main_arg13 : FVec F S1024 .f32) (main_arg14 : FVec F S1024 .f32) (main_arg15 : FVec F S32000x1024 .f32) (main_arg16 : FVec F S32000 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S4096x1024 .f32 := Host.absf main_arg7
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg0 main_arg8 main_arg9 main_arg10 main_arg11 main_arg12 main_arg13 main_arg14 main_arg15 main_arg16 main_v33

def fn {F : FTy → Type} [FloatOps F] (main_arg0 : IVec S1024x4 32) (main_arg1 : FVec F S32000x1024 .f32) (main_arg2 : FVec F S1024x1024 .f32) (main_arg3 : FVec F S1024x1024 .f32) (main_arg4 : FVec F S1024x1024 .f32) (main_arg5 : FVec F S1024x1024 .f32) (main_arg6 : FVec F S1024 .f32) (main_arg7 : FVec F S4096x1024 .f32) (main_arg8 : FVec F S4096 .f32) (main_arg9 : FVec F S1024x4096 .f32) (main_arg10 : FVec F S1024 .f32) (main_arg11 : FVec F S1024 .f32) (main_arg12 : FVec F S1024 .f32) (main_arg13 : FVec F S1024 .f32) (main_arg14 : FVec F S1024 .f32) (main_arg15 : FVec F S32000x1024 .f32) (main_arg16 : FVec F S32000 .f32) : IVec S_ 1 :=
  let main_v0 : FVec F S32000x1024 .f32 := Host.absf main_arg1
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg0 main_arg5 main_arg6 main_arg7 main_arg8 main_arg9 main_arg10 main_arg11 main_arg12 main_arg13 main_arg14 main_arg15 main_arg16 main_v13 main_v16
-- ==== Kernel.lean ====
abbrev S1024x4 : Shape := ⟨2, ![1024, 4]⟩
abbrev S32000x1024 : Shape := ⟨2, ![32000, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S32000 : Shape := ⟨1, ![32000]⟩
abbrev S_ : Shape := ⟨0, ![]⟩
abbrev S1024x4x1 : Shape := ⟨3, ![1024, 4, 1]⟩
abbrev S1 : Shape := ⟨1, ![1]⟩
abbrev S1x1x1 : Shape := ⟨3, ![1, 1, 1]⟩
abbrev S1024x4x1024 : Shape := ⟨3, ![1024, 4, 1024]⟩
abbrev S3072x1024 : Shape := ⟨2, ![3072, 1024]⟩
abbrev S1024x3072 : Shape := ⟨2, ![1024, 3072]⟩
abbrev S4096x3072 : Shape := ⟨2, ![4096, 3072]⟩
abbrev S512x1024 : Shape := ⟨2, ![512, 1024]⟩
abbrev S512x3072 : Shape := ⟨2, ![512, 3072]⟩
abbrev S1024x4x3072 : Shape := ⟨3, ![1024, 4, 3072]⟩
abbrev S4x1024x3072 : Shape := ⟨3, ![4, 1024, 3072]⟩
abbrev S4x1024x1024 : Shape := ⟨3, ![4, 1024, 1024]⟩
abbrev S1x1024x1024 : Shape := ⟨3, ![1, 1024, 1024]⟩
abbrev S1024x1 : Shape := ⟨2, ![1024, 1]⟩
abbrev S1x1024 : Shape := ⟨2, ![1, 1024]⟩
abbrev S1x4096 : Shape := ⟨2, ![1, 4096]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩
abbrev S1x32000 : Shape := ⟨2, ![1, 32000]⟩
abbrev S4096x32000 : Shape := ⟨2, ![4096, 32000]⟩
abbrev S1280x1024 : Shape := ⟨2, ![1280, 1024]⟩
abbrev S1x1280 : Shape := ⟨2, ![1, 1280]⟩
abbrev S512x1280 : Shape := ⟨2, ![512, 1280]⟩

abbrev nBuf : Space → Nat
  | .hbm => 66
  | .vmem => 37
  | .smem => 0
  | _ => 0

abbrev bufTy : (tb : Table) → Fin (tcTables nBuf tb) → BufTy
  | .hbm, ⟨0, _⟩ => ⟨S1024x4, .i32⟩
  | .hbm, ⟨1, _⟩ => ⟨S32000x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S4096x1024, .f32⟩
  | .hbm, ⟨8, _⟩ => ⟨S4096, .f32⟩
  | .hbm, ⟨9, _⟩ => ⟨S1024x4096, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S32000x1024, .f32⟩
  | .hbm, ⟨16, _⟩ => ⟨S32000, .f32⟩
  | .hbm, ⟨17, _⟩ => ⟨S_, .i32⟩
  | .hbm, ⟨18, _⟩ => ⟨S1024x4, .i32⟩
  | .hbm, ⟨19, _⟩ => ⟨S1024x4, .i1⟩
  | .hbm, ⟨20, _⟩ => ⟨S_, .i32⟩
  | .hbm, ⟨21, _⟩ => ⟨S1024x4, .i32⟩
  | .hbm, ⟨22, _⟩ => ⟨S1024x4, .i32⟩
  | .hbm, ⟨23, _⟩ => ⟨S1024x4, .i32⟩
  | .hbm, ⟨24, _⟩ => ⟨S1024x4x1, .i32⟩
  | .hbm, ⟨25, _⟩ => ⟨S1, .i32⟩
  | .hbm, ⟨26, _⟩ => ⟨S_, .i32⟩
  | .hbm, ⟨27, _⟩ => ⟨S1024x4x1, .i32⟩
  | .hbm, ⟨28, _⟩ => ⟨S1024x4x1, .i1⟩
  | .hbm, ⟨29, _⟩ => ⟨S1x1x1, .i32⟩
  | .hbm, ⟨30, _⟩ => ⟨S1024x4x1, .i32⟩
  | .hbm, ⟨31, _⟩ => ⟨S1024x4x1, .i1⟩
  | .hbm, ⟨32, _⟩ => ⟨S1024x4x1, .i1⟩
  | .hbm, ⟨33, _⟩ => ⟨S_, .i1⟩
  | .hbm, ⟨34, _⟩ => ⟨S1024x4, .i1⟩
  | .hbm, ⟨35, _⟩ => ⟨S1024x4x1024, .f32⟩
  | .hbm, ⟨36, _⟩ => ⟨S1024x4x1024, .i1⟩
  | .hbm, ⟨37, _⟩ => ⟨S_, .f32⟩
  | .hbm, ⟨38, _⟩ => ⟨S1024x4x1024, .f32⟩
  | .hbm, ⟨39, _⟩ => ⟨S1024x4x1024, .f32⟩
  | .hbm, ⟨40, _⟩ => ⟨S4096x1024, .f32⟩
  | .hbm, ⟨41, _⟩ => ⟨S3072x1024, .f32⟩
  | .hbm, ⟨42, _⟩ => ⟨S1024x3072, .f32⟩
  | .hbm, ⟨43, _⟩ => ⟨S1024x3072, .bf16⟩
  | .hbm, ⟨44, _⟩ => ⟨S4096x3072, .bf16⟩
  | .hbm, ⟨45, _⟩ => ⟨S1024x4x3072, .bf16⟩
  | .hbm, ⟨46, _⟩ => ⟨S4x1024x3072, .bf16⟩
  | .hbm, ⟨47, _⟩ => ⟨S4x1024x1024, .f32⟩
  | .hbm, ⟨48, _⟩ => ⟨S1024x4x1024, .f32⟩
  | .hbm, ⟨49, _⟩ => ⟨S4096x1024, .f32⟩
  | .hbm, ⟨50, _⟩ => ⟨S1024x1024, .f32⟩
  | .hbm, ⟨51, _⟩ => ⟨S1024x1024, .bf16⟩
  | .hbm, ⟨52, _⟩ => ⟨S1024x4096, .f32⟩
  | .hbm, ⟨53, _⟩ => ⟨S1024x4096, .bf16⟩
  | .hbm, ⟨54, _⟩ => ⟨S4096x1024, .f32⟩
  | .hbm, ⟨55, _⟩ => ⟨S4096x1024, .bf16⟩
  | .hbm, ⟨56, _⟩ => ⟨S1x1024, .f32⟩
  | .hbm, ⟨57, _⟩ => ⟨S1x4096, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S4096x1024, .bf16⟩
  | .hbm, ⟨64, _⟩ => ⟨S1x32000, .f32⟩
  | .hbm, ⟨65, _⟩ => ⟨S4096x32000, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1024x4096, .bf16⟩
  | .local _ .vmem, ⟨22, _⟩ => ⟨S1x4096, .f32⟩
  | .local _ .vmem, ⟨23, _⟩ => ⟨S4096x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S256x1024, .bf16⟩
  | .local _ .vmem, ⟨28, _⟩ => ⟨S256x1024, .bf16⟩
  | .local _ .vmem, ⟨29, _⟩ => ⟨S512x1024, .bf16⟩
  | .local _ .vmem, ⟨30, _⟩ => ⟨S512x1024, .bf16⟩
  | .local _ .vmem, ⟨31, _⟩ => ⟨S1280x1024, .f32⟩
  | .local _ .vmem, ⟨32, _⟩ => ⟨S1280x1024, .f32⟩
  | .local _ .vmem, ⟨33, _⟩ => ⟨S1x1280, .f32⟩
  | .local _ .vmem, ⟨34, _⟩ => ⟨S1x1280, .f32⟩
  | .local _ .vmem, ⟨35, _⟩ => ⟨S512x1280, .f32⟩
  | .local _ .vmem, ⟨36, _⟩ => ⟨S512x1280, .f32⟩
  | _, _ => ⟨S1024x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg11_0 : Ref sig .tc := ⟨.vmem, 26, rfl⟩
abbrev cc2_stg12_0 : Ref sig .tc := ⟨.vmem, 27, rfl⟩
abbrev cc2_stg12_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem11_0 : DmaSem sig := 26
abbrev cc2_sem12_0 : DmaSem sig := 27
abbrev cc2_sem12_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x4096 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x4096 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S4096x1024 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S256x1024 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨2, ![25, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1280x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1280 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S512x1280 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  bcast_S_S1024x4 : S_.BroadcastsInDim S1024x4 (![] : Fin 0 → Fin S1024x4.rank)
  bcast_S1024x4_S1024x4x1_0_1 : S1024x4.BroadcastsInDim S1024x4x1 (![0, 1] : Fin 2 → Fin S1024x4x1.rank)
  bcast_S_S1024x4x1 : S_.BroadcastsInDim S1024x4x1 (![] : Fin 0 → Fin S1024x4x1.rank)
  bcast_S1_S1x1x1_2 : S1.BroadcastsInDim S1x1x1 (![2] : Fin 1 → Fin S1x1x1.rank)
  bcast_S1x1x1_S1024x4x1_0_1_2 : S1x1x1.BroadcastsInDim S1024x4x1 (![0, 1, 2] : Fin 3 → Fin S1024x4x1.rank)
  reducesTo_S1024x4x1_S1024x4_d2 : S1024x4x1.ReducesTo [2] S1024x4
  h_S_ : 0 < S_.numel
  bcast_S1024x4_S1024x4x1024_0_1 : S1024x4.BroadcastsInDim S1024x4x1024 (![0, 1] : Fin 2 → Fin S1024x4x1024.rank)
  bcast_S_S1024x4x1024 : S_.BroadcastsInDim S1024x4x1024 (![] : Fin 0 → Fin S1024x4x1024.rank)
  shapeCasts_S1024x4x1024_S4096x1024 : S1024x4x1024.ShapeCasts S4096x1024
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S1024x4x3072 : S4096x3072.ShapeCasts S1024x4x3072
  transposes_S1024x4x3072_S4x1024x3072_1_0_2 : S1024x4x3072.Transposes [1, 0, 2] S4x1024x3072
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  transposes_S4x1024x1024_S1024x4x1024_1_0_2 : S4x1024x1024.Transposes [1, 0, 2] S1024x4x1024
  transposes_S1024x1024_S1024x1024_1_0 : S1024x1024.Transposes [1, 0] S1024x1024
  transposes_S4096x1024_S1024x4096_1_0 : S4096x1024.Transposes [1, 0] S1024x4096
  transposes_S1024x4096_S4096x1024_1_0 : S1024x4096.Transposes [1, 0] S4096x1024
  shapeCasts_S1024_S1x1024 : S1024.ShapeCasts S1x1024
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  packedbf16_S256x1024_S256x1024_0_0 : (Rect.unit (s := S256x1024) ![0, 0] S256x1024.size inb_S256x1024_S256x1024_0_0).PackedRows (EltTy.packing .bf16)
  shapeCasts_S32000_S1x32000 : S32000.ShapeCasts S1x32000
  inb_S1280x1024_S1280x1024_0_0 : ∀ a, (![0, 0] : Fin 2 → Nat) a + S1280x1024.size a ≤ S1280x1024.size a
  h_S1280x1024 : 0 < S1280x1024.numel
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S512x1280 : S1x1280.Broadcasts S512x1280
  inb_S512x1280_S512x1280_0_0 : ∀ a, (![0, 0] : Fin 2 → Nat) a + S512x1280.size a ≤ S512x1280.size a
  h_S512x1280 : 0 < S512x1280.numel
  gather_S32000x1024_S1024x4x1_S1024x4x1024_2_0_n_n_0_2_11024_wf : GatherDims.WF S32000x1024 S1024x4x1 S1024x4x1024 [2] [0] [] [0] [] 2 ![1, 1024]
  dot_S512x1024_S1024x3072_S512x3072_1_0_0_1_n_n_wf : DotDims.WF S512x1024 S1024x3072 S512x3072 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  dot_S256x1024_S1024x1024_S256x1024_1_0_0_1_n_n_wf : DotDims.WF S256x1024 S1024x1024 S256x1024 [1] [0] [0] [1] [] []
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  dot_S512x1024_S1280x1024_S512x1280_1_1_0_0_n_n_wf : DotDims.WF S512x1024 S1280x1024 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S4096x3072.size a
  hwx0_2 : ∀ i : grid0.Coords, EltTy.bits .bf16 = 32 ∨ (Rect.block (s := S4096x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x1024x3072.size a
  hwx1_0 : ∀ i : grid1.Coords, EltTy.bits .bf16 = 32 ∨ (Rect.block (s := S4x1024x3072) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x1024x3072.size a
  hwx1_1 : ∀ i : grid1.Coords, EltTy.bits .bf16 = 32 ∨ (Rect.block (s := S4x1024x3072) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x1024x3072.size a
  hwx1_2 : ∀ i : grid1.Coords, EltTy.bits .bf16 = 32 ∨ (Rect.block (s := S4x1024x3072) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x1024x1024.size a
  hwx1_3 : ∀ i : grid1.Coords, EltTy.bits .f32 = 32 ∨ (Rect.block (s := S4x1024x1024) S1x1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S4096x1024.size a
  hwx2_0 : ∀ i : grid2.Coords, EltTy.bits .f32 = 32 ∨ (Rect.block (s := S4096x1024) S256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S4096x1024.size a
  hwx2_1 : ∀ i : grid2.Coords, EltTy.bits .f32 = 32 ∨ (Rect.block (s := S4096x1024) S256x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .bf16 = 32 ∨ (Rect.block (s := S1024x1024) S1024x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1024x4096.size a ≤ S1024x4096.size a
  hwx2_6 : ∀ i : grid2.Coords, EltTy.bits .bf16 = 32 ∨ (Rect.block (s := S1024x4096) S1024x4096.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x4096.size a ≤ S1x4096.size a
  hwx2_7 : ∀ i : grid2.Coords, EltTy.bits .f32 = 32 ∨ (Rect.block (s := S1x4096) S1x4096.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S4096x1024.size a ≤ S4096x1024.size a
  hwx2_8 : ∀ i : grid2.Coords, EltTy.bits .bf16 = 32 ∨ (Rect.block (s := S4096x1024) S4096x1024.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1024.size a ≤ S1x1024.size a
  hwx2_9 : ∀ i : grid2.Coords, EltTy.bits .f32 = 32 ∨ (Rect.block (s := S1x1024) S1x1024.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1024.size a ≤ S1x1024.size a
  hwx2_10 : ∀ i : grid2.Coords, EltTy.bits .f32 = 32 ∨ (Rect.block (s := S1x1024) S1x1024.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x1024.size a ≤ S1x1024.size a
  hwx2_11 : ∀ i : grid2.Coords, EltTy.bits .f32 = 32 ∨ (Rect.block (s := S1x1024) S1x1024.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S256x1024.size a ≤ S4096x1024.size a
  hwx2_12 : ∀ i : grid2.Coords, EltTy.bits .bf16 = 32 ∨ (Rect.block (s := S4096x1024) S256x1024.size (cc2_transform_12 i) (hinb2_12 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S4096x1024.size a
  hwx3_0 : ∀ i : grid3.Coords, EltTy.bits .bf16 = 32 ∨ (Rect.block (s := S4096x1024) S512x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1280x1024.size a ≤ S32000x1024.size a
  hwx3_1 : ∀ i : grid3.Coords, EltTy.bits .f32 = 32 ∨ (Rect.block (s := S32000x1024) S1280x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1280.size a ≤ S1x32000.size a
  hwx3_2 : ∀ i : grid3.Coords, EltTy.bits .f32 = 32 ∨ (Rect.block (s := S1x32000) S1x1280.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1280.size a ≤ S4096x32000.size a
  hwx3_3 : ∀ i : grid3.Coords, EltTy.bits .f32 = 32 ∨ (Rect.block (s := S4096x32000) S512x1280.size (cc3_transform_3 i) (hinb3_3 i)).WholeWords (EltTy.packing .f32)

variable [Facts₀]

def gather_S32000x1024_S1024x4x1_S1024x4x1024_2_0_n_n_0_2_11024 : GatherDims S32000x1024 S1024x4x1 S1024x4x1024 where
  offsetDims := [2]
  collapsedSliceDims := [0]
  operandBatchingDims := []
  startIndicesBatchingDims := []
  startIndexMap := [0]
  indexVectorDim := 2
  sliceSizes := ![1, 1024]
  wf := gather_S32000x1024_S1024x4x1_S1024x4x1024_2_0_n_n_0_2_11024_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S512x1024_S1280x1024_S512x1280_1_1_0_0_n_n : DotDims S512x1024 S1280x1024 S512x1280 where
  lhsContracting := [1]
  rhsContracting := [1]
  lhsNonContracting := [0]
  rhsNonContracting := [0]
  lhsBatch := []
  rhsBatch := []
  wf := dot_S512x1024_S1280x1024_S512x1280_1_1_0_0_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14) S1024x4096.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S1x4096.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v16) S4096x1024.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v19) S1x1024.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v22) S1x1024.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v23) S1x1024.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v24) S256x1024.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev win3_0 : Pipeline.Window sig grid3 :=
  Pipeline.Window.ofSpec (Memref.whole main_v24) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S1280x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x1280.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v26) S512x1280.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S1024x4 : Shape := ⟨2, ![1024, 4]⟩
abbrev S32000x1024 : Shape := ⟨2, ![32000, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S32000 : Shape := ⟨1, ![32000]⟩
abbrev S_ : Shape := ⟨0, ![]⟩
abbrev S1024x4x1 : Shape := ⟨3, ![1024, 4, 1]⟩
abbrev S1024x4x1024 : Shape := ⟨3, ![1024, 4, 1024]⟩
abbrev S1024x1024x4 : Shape := ⟨3, ![1024, 1024, 4]⟩
abbrev S4x1024x1024 : Shape := ⟨3, ![4, 1024, 1024]⟩
abbrev S4x1024 : Shape := ⟨2, ![4, 1024]⟩
abbrev S4x1024x1 : Shape := ⟨3, ![4, 1024, 1]⟩
abbrev S1x1x1024 : Shape := ⟨3, ![1, 1, 1024]⟩
abbrev S1024x4x4096 : Shape := ⟨3, ![1024, 4, 4096]⟩
abbrev S1x1x4096 : Shape := ⟨3, ![1, 1, 4096]⟩
abbrev S1024x32000 : Shape := ⟨2, ![1024, 32000]⟩
abbrev S4096x32000 : Shape := ⟨2, ![4096, 32000]⟩
abbrev S1x32000 : Shape := ⟨2, ![1, 32000]⟩

abbrev nBuf : Space → Nat
  | .hbm => 164
  | .vmem => 0
  | .smem => 0
  | _ => 0

abbrev hbmTy0_0 (i : Nat) : BufTy := match i % 128 with
  | 0 => ⟨S1024x4, .i32⟩
  | 1 => ⟨S32000x1024, .f32⟩
  | 2 => ⟨S1024x1024, .f32⟩
  | 3 => ⟨S1024x1024, .f32⟩
  | 4 => ⟨S1024x1024, .f32⟩
  | 5 => ⟨S1024x1024, .f32⟩
  | 6 => ⟨S1024, .f32⟩
  | 7 => ⟨S4096x1024, .f32⟩
  | 8 => ⟨S4096, .f32⟩
  | 9 => ⟨S1024x4096, .f32⟩
  | 10 => ⟨S1024, .f32⟩
  | 11 => ⟨S1024, .f32⟩
  | 12 => ⟨S1024, .f32⟩
  | 13 => ⟨S1024, .f32⟩
  | 14 => ⟨S1024, .f32⟩
  | 15 => ⟨S32000x1024, .f32⟩
  | 16 => ⟨S32000, .f32⟩
  | 17 => ⟨S_, .i32⟩
  | 18 => ⟨S1024x4, .i32⟩
  | 19 => ⟨S1024x4, .i1⟩
  | 20 => ⟨S_, .i32⟩
  | 21 => ⟨S1024x4, .i32⟩
  | 22 => ⟨S1024x4, .i32⟩
  | 23 => ⟨S1024x4, .i32⟩
  | 24 => ⟨S1024x4x1, .i32⟩
  | 25 => ⟨S1024x4x1024, .f32⟩
  | 26 => ⟨S1024x1024x4, .f32⟩
  | 27 => ⟨S4x1024x1024, .f32⟩
  | 28 => ⟨S1024x1024x4, .f32⟩
  | 29 => ⟨S4x1024x1024, .f32⟩
  | 30 => ⟨S1024x1024x4, .f32⟩
  | 31 => ⟨S4x1024x1024, .f32⟩
  | 32 => ⟨S4x1024x1024, .f32⟩
  | 33 => ⟨S_, .f32⟩
  | 34 => ⟨S_, .f32⟩
  | 35 => ⟨S4x1024x1024, .f32⟩
  | 36 => ⟨S4x1024x1024, .f32⟩
  | 37 => ⟨S_, .f32⟩
  | 38 => ⟨S4x1024, .f32⟩
  | 39 => ⟨S_, .f32⟩
  | 40 => ⟨S4x1024, .f32⟩
  | 41 => ⟨S4x1024, .f32⟩
  | 42 => ⟨S4x1024x1, .f32⟩
  | 43 => ⟨S4x1024x1024, .f32⟩
  | 44 => ⟨S4x1024x1024, .f32⟩
  | 45 => ⟨S4x1024x1024, .f32⟩
  | 46 => ⟨S_, .f32⟩
  | 47 => ⟨S4x1024, .f32⟩
  | 48 => ⟨S4x1024x1, .f32⟩
  | 49 => ⟨S4x1024x1024, .f32⟩
  | 50 => ⟨S4x1024x1024, .f32⟩
  | 51 => ⟨S4x1024x1024, .f32⟩
  | 52 => ⟨S1024x4x1024, .f32⟩
  | 53 => ⟨S1024x4x1024, .f32⟩
  | 54 => ⟨S1x1x1024, .f32⟩
  | 55 => ⟨S1024x4x1024, .f32⟩
  | 56 => ⟨S1024x4x1024, .f32⟩
  | 57 => ⟨S1024x4x1024, .f32⟩
  | 58 => ⟨S_, .f32⟩
  | 59 => ⟨S1024x4, .f32⟩
  | 60 => ⟨S1024x4x1, .f32⟩
  | 61 => ⟨S_, .f32⟩
  | 62 => ⟨S1024x4x1, .f32⟩
  | 63 => ⟨S1024x4x1, .f32⟩
  | 64 => ⟨S_, .i32⟩
  | 65 => ⟨S_, .f32⟩
  | 66 => ⟨S1024x4, .f32⟩
  | 67 => ⟨S1024x4x1, .f32⟩
  | 68 => ⟨S_, .f32⟩
  | 69 => ⟨S1024x4x1, .f32⟩
  | 70 => ⟨S1024x4x1, .f32⟩
  | 71 => ⟨S1024x4x1024, .f32⟩
  | 72 => ⟨S1024x4x1024, .f32⟩
  | 73 => ⟨S1024x4x1024, .f32⟩
  | 74 => ⟨S_, .f32⟩
  | 75 => ⟨S_, .f32⟩
  | 76 => ⟨S_, .f32⟩
  | 77 => ⟨S_, .f32⟩
  | 78 => ⟨S1024x4, .f32⟩
  | 79 => ⟨S1024x4x1, .f32⟩
  | 80 => ⟨S1024x4x1, .f32⟩
  | 81 => ⟨S1024x4x1, .f32⟩
  | 82 => ⟨S_, .f32⟩
  | 83 => ⟨S_, .i1⟩
  | 84 => ⟨S_, .f32⟩
  | 85 => ⟨S_, .f32⟩
  | 86 => ⟨S1024x4x1, .f32⟩
  | 87 => ⟨S1024x4x1, .f32⟩
  | 88 => ⟨S1024x4x1024, .f32⟩
  | 89 => ⟨S1024x4x1024, .f32⟩
  | 90 => ⟨S_, .f32⟩
  | 91 => ⟨S1024x4x1, .f32⟩
  | 92 => ⟨S1024x4x1, .f32⟩
  | 93 => ⟨S1024x4x1, .f32⟩
  | 94 => ⟨S1024x4x1024, .f32⟩
  | 95 => ⟨S1024x4x1024, .f32⟩
  | 96 => ⟨S1x1x1024, .f32⟩
  | 97 => ⟨S1024x4x1024, .f32⟩
  | 98 => ⟨S1024x4x1024, .f32⟩
  | 99 => ⟨S1x1x1024, .f32⟩
  | 100 => ⟨S1024x4x1024, .f32⟩
  | 101 => ⟨S1024x4x1024, .f32⟩
  | 102 => ⟨S1024x4x4096, .f32⟩
  | 103 => ⟨S1x1x4096, .f32⟩
  | 104 => ⟨S1024x4x4096, .f32⟩
  | 105 => ⟨S1024x4x4096, .f32⟩
  | 106 => ⟨S_, .f32⟩
  | 107 => ⟨S1024x4x4096, .f32⟩
  | 108 => ⟨S1024x4x4096, .f32⟩
  | 109 => ⟨S1024x4x1024, .f32⟩
  | 110 => ⟨S1x1x1024, .f32⟩
  | 111 => ⟨S1024x4x1024, .f32⟩
  | 112 => ⟨S1024x4x1024, .f32⟩
  | 113 => ⟨S1024x4x1024, .f32⟩
  | 114 => ⟨S_, .f32⟩
  | 115 => ⟨S1024x4, .f32⟩
  | 116 => ⟨S1024x4x1, .f32⟩
  | 117 => ⟨S_, .f32⟩
  | 118 => ⟨S1024x4x1, .f32⟩
  | 119 => ⟨S1024x4x1, .f32⟩
  | 120 => ⟨S_, .i32⟩
  | 121 => ⟨S_, .f32⟩
  | 122 => ⟨S1024x4, .f32⟩
  | 123 => ⟨S1024x4x1, .f32⟩
  | 124 => ⟨S_, .f32⟩
  | 125 => ⟨S1024x4x1, .f32⟩
  | 126 => ⟨S1024x4x1, .f32⟩
  | 127 => ⟨S1024x4x1024, .f32⟩
  | _ => ⟨S1024x4, .i32⟩

abbrev hbmTy0_1 (i : Nat) : BufTy := match i % 128 with
  | 0 => ⟨S1024x4x1024, .f32⟩
  | 1 => ⟨S1024x4x1024, .f32⟩
  | 2 => ⟨S_, .f32⟩
  | 3 => ⟨S_, .f32⟩
  | 4 => ⟨S_, .f32⟩
  | 5 => ⟨S_, .f32⟩
  | 6 => ⟨S1024x4, .f32⟩
  | 7 => ⟨S1024x4x1, .f32⟩
  | 8 => ⟨S1024x4x1, .f32⟩
  | 9 => ⟨S1024x4x1, .f32⟩
  | 10 => ⟨S_, .f32⟩
  | 11 => ⟨S_, .i1⟩
  | 12 => ⟨S_, .f32⟩
  | 13 => ⟨S_, .f32⟩
  | 14 => ⟨S1024x4x1, .f32⟩
  | 15 => ⟨S1024x4x1, .f32⟩
  | 16 => ⟨S1024x4x1024, .f32⟩
  | 17 => ⟨S1024x4x1024, .f32⟩
  | 18 => ⟨S_, .f32⟩
  | 19 => ⟨S1024x4x1, .f32⟩
  | 20 => ⟨S1024x4x1, .f32⟩
  | 21 => ⟨S1024x4x1, .f32⟩
  | 22 => ⟨S1024x4x1024, .f32⟩
  | 23 => ⟨S1024x4x1024, .f32⟩
  | 24 => ⟨S1x1x1024, .f32⟩
  | 25 => ⟨S1024x4x1024, .f32⟩
  | 26 => ⟨S1024x4x1024, .f32⟩
  | 27 => ⟨S1x1x1024, .f32⟩
  | 28 => ⟨S1024x4x1024, .f32⟩
  | 29 => ⟨S1024x4x1024, .f32⟩
  | 30 => ⟨S4096x1024, .f32⟩
  | 31 => ⟨S1024x32000, .f32⟩
  | 32 => ⟨S4096x32000, .f32⟩
  | 33 => ⟨S1x32000, .f32⟩
  | 34 => ⟨S4096x32000, .f32⟩
  | 35 => ⟨S4096x32000, .f32⟩
  | _ => ⟨S1024x4, .i32⟩

abbrev hbmTy (i : Nat) : BufTy := match i / 128 with
  | 0 => hbmTy0_0 i
  | 1 => hbmTy0_1 i
  | _ => ⟨S1024x4, .i32⟩

abbrev bufTy : (tb : Table) → Fin (tcTables nBuf tb) → BufTy
  | .hbm, ⟨i, _⟩ => hbmTy i
  | _, _ => ⟨S1024x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_c_6 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_cst_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_cst_1 : Ref sig .tc := ⟨.hbm, 75, rfl⟩
abbrev main_call0_v8 : Ref sig .tc := ⟨.hbm, 76, rfl⟩
abbrev main_call0_cst_2 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_v12 : Ref sig .tc := ⟨.hbm, 81, rfl⟩
abbrev main_call0_cst_3 : Ref sig .tc := ⟨.hbm, 82, rfl⟩
abbrev main_call0_v13 : Ref sig .tc := ⟨.hbm, 83, rfl⟩
abbrev main_call0_cst_4 : Ref sig .tc := ⟨.hbm, 84, rfl⟩
abbrev main_call0_call0_v0 : Ref sig .tc := ⟨.hbm, 85, rfl⟩
abbrev main_call0_call0_v1 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_7 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_call1_cst : Ref sig .tc := ⟨.hbm, 106, rfl⟩
abbrev main_call1_v0 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_8 : Ref sig .tc := ⟨.hbm, 114, rfl⟩
abbrev main_v63 : Ref sig .tc := ⟨.hbm, 115, rfl⟩
abbrev main_v64 : Ref sig .tc := ⟨.hbm, 116, rfl⟩
abbrev main_cst_9 : Ref sig .tc := ⟨.hbm, 117, rfl⟩
abbrev main_v65 : Ref sig .tc := ⟨.hbm, 118, rfl⟩
abbrev main_v66 : Ref sig .tc := ⟨.hbm, 119, rfl⟩
abbrev main_c_10 : Ref sig .tc := ⟨.hbm, 120, rfl⟩
abbrev main_call2_cst : Ref sig .tc := ⟨.hbm, 121, rfl⟩
abbrev main_call2_v0 : Ref sig .tc := ⟨.hbm, 122, rfl⟩
abbrev main_call2_v1 : Ref sig .tc := ⟨.hbm, 123, rfl⟩
abbrev main_call2_cst_0 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_v5 : Ref sig .tc := ⟨.hbm, 128, rfl⟩
abbrev main_call2_v6 : Ref sig .tc := ⟨.hbm, 129, rfl⟩
abbrev main_call2_v7 : Ref sig .tc := ⟨.hbm, 130, rfl⟩
abbrev main_call2_cst_1 : Ref sig .tc := ⟨.hbm, 131, rfl⟩
abbrev main_call2_v8 : Ref sig .tc := ⟨.hbm, 132, rfl⟩
abbrev main_call2_cst_2 : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_call2_v12 : Ref sig .tc := ⟨.hbm, 137, rfl⟩
abbrev main_call2_cst_3 : Ref sig .tc := ⟨.hbm, 138, rfl⟩
abbrev main_call2_v13 : Ref sig .tc := ⟨.hbm, 139, rfl⟩
abbrev main_call2_cst_4 : Ref sig .tc := ⟨.hbm, 140, rfl⟩
abbrev main_call2_call0_v0 : Ref sig .tc := ⟨.hbm, 141, rfl⟩
abbrev main_call2_call0_v1 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_cst_11 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩

abbrev nD : Nat := 1
abbrev τ : Topo := Topo.v7x

variable {F : FTy → Type} [FloatOps F]

class Facts₀ : Prop where
  bcast_S_S1024x4 : S_.BroadcastsInDim S1024x4 (![] : Fin 0 → Fin S1024x4.rank)
  bcast_S1024x4_S1024x4x1_0_1 : S1024x4.BroadcastsInDim S1024x4x1 (![0, 1] : Fin 2 → Fin S1024x4x1.rank)
  transposes_S1024x1024x4_S4x1024x1024_2_1_0 : S1024x1024x4.Transposes [2, 1, 0] S4x1024x1024
  bcast_S_S4x1024x1024 : S_.BroadcastsInDim S4x1024x1024 (![] : Fin 0 → Fin S4x1024x1024.rank)
  reducesTo_S4x1024x1024_S4x1024_d2 : S4x1024x1024.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x1024_0_1_2 : S4x1024x1.BroadcastsInDim S4x1024x1024 (![0, 1, 2] : Fin 3 → Fin S4x1024x1024.rank)
  transposes_S4x1024x1024_S1024x4x1024_2_0_1 : S4x1024x1024.Transposes [2, 0, 1] S1024x4x1024
  bcast_S1024_S1x1x1024_2 : S1024.BroadcastsInDim S1x1x1024 (![2] : Fin 1 → Fin S1x1x1024.rank)
  bcast_S1x1x1024_S1024x4x1024_0_1_2 : S1x1x1024.BroadcastsInDim S1024x4x1024 (![0, 1, 2] : Fin 3 → Fin S1024x4x1024.rank)
  reducesTo_S1024x4x1024_S1024x4_d2 : S1024x4x1024.ReducesTo [2] S1024x4
  bcast_S_S1024x4x1 : S_.BroadcastsInDim S1024x4x1 (![] : Fin 0 → Fin S1024x4x1.rank)
  bcast_S1024x4x1_S1024x4x1024_0_1_2 : S1024x4x1.BroadcastsInDim S1024x4x1024 (![0, 1, 2] : Fin 3 → Fin S1024x4x1024.rank)
  bcast_S4096_S1x1x4096_2 : S4096.BroadcastsInDim S1x1x4096 (![2] : Fin 1 → Fin S1x1x4096.rank)
  bcast_S1x1x4096_S1024x4x4096_0_1_2 : S1x1x4096.BroadcastsInDim S1024x4x4096 (![0, 1, 2] : Fin 3 → Fin S1024x4x4096.rank)
  bcast_S_S1024x4x4096 : S_.BroadcastsInDim S1024x4x4096 (![] : Fin 0 → Fin S1024x4x4096.rank)
  shapeCasts_S1024x4x1024_S4096x1024 : S1024x4x1024.ShapeCasts S4096x1024
  transposes_S32000x1024_S1024x32000_1_0 : S32000x1024.Transposes [1, 0] S1024x32000
  bcast_S32000_S1x32000_1 : S32000.BroadcastsInDim S1x32000 (![1] : Fin 1 → Fin S1x32000.rank)
  bcast_S1x32000_S4096x32000_0_1 : S1x32000.BroadcastsInDim S4096x32000 (![0, 1] : Fin 2 → Fin S4096x32000.rank)
  gather_S32000x1024_S1024x4x1_S1024x4x1024_2_0_n_n_0_2_11024_wf : GatherDims.WF S32000x1024 S1024x4x1 S1024x4x1024 [2] [0] [] [0] [] 2 ![1, 1024]
  dot_S1024x1024_S1024x4x1024_S1024x1024x4_1_2_0_01_n_n_wf : DotDims.WF S1024x1024 S1024x4x1024 S1024x1024x4 [1] [2] [0] [0, 1] [] []
  dot_S4x1024x1024_S4x1024x1024_S4x1024x1024_2_2_1_1_0_0_wf : DotDims.WF S4x1024x1024 S4x1024x1024 S4x1024x1024 [2] [2] [1] [1] [0] [0]
  dot_S4x1024x1024_S4x1024x1024_S4x1024x1024_1_2_2_1_0_0_wf : DotDims.WF S4x1024x1024 S4x1024x1024 S4x1024x1024 [1] [2] [2] [1] [0] [0]
  dot_S1024x4x1024_S1024x1024_S1024x4x1024_2_1_01_0_n_n_wf : DotDims.WF S1024x4x1024 S1024x1024 S1024x4x1024 [2] [1] [0, 1] [0] [] []
  dot_S1024x4x1024_S4096x1024_S1024x4x4096_2_1_01_0_n_n_wf : DotDims.WF S1024x4x1024 S4096x1024 S1024x4x4096 [2] [1] [0, 1] [0] [] []
  dot_S1024x4x4096_S1024x4096_S1024x4x1024_2_1_01_0_n_n_wf : DotDims.WF S1024x4x4096 S1024x4096 S1024x4x1024 [2] [1] [0, 1] [0] [] []
  dot_S4096x1024_S1024x32000_S4096x32000_1_0_0_1_n_n_wf : DotDims.WF S4096x1024 S1024x32000 S4096x32000 [1] [0] [0] [1] [] []

variable [Facts₀]

def gather_S32000x1024_S1024x4x1_S1024x4x1024_2_0_n_n_0_2_11024 : GatherDims S32000x1024 S1024x4x1 S1024x4x1024 where
  offsetDims := [2]
  collapsedSliceDims := [0]
  operandBatchingDims := []
  startIndicesBatchingDims := []
  startIndexMap := [0]
  indexVectorDim := 2
  sliceSizes := ![1, 1024]
  wf := gather_S32000x1024_S1024x4x1_S1024x4x1024_2_0_n_n_0_2_11024_wf
def dot_S1024x1024_S1024x4x1024_S1024x1024x4_1_2_0_01_n_n : DotDims S1024x1024 S1024x4x1024 S1024x1024x4 where
  lhsContracting := [1]
  rhsContracting := [2]
  lhsNonContracting := [0]
  rhsNonContracting := [0, 1]
  lhsBatch := []
  rhsBatch := []
  wf := dot_S1024x1024_S1024x4x1024_S1024x1024x4_1_2_0_01_n_n_wf
def dot_S4x1024x1024_S4x1024x1024_S4x1024x1024_2_2_1_1_0_0 : DotDims S4x1024x1024 S4x1024x1024 S4x1024x1024 where
  lhsContracting := [2]
  rhsContracting := [2]
  lhsNonContracting := [1]
  rhsNonContracting := [1]
  lhsBatch := [0]
  rhsBatch := [0]
  wf := dot_S4x1024x1024_S4x1024x1024_S4x1024x1024_2_2_1_1_0_0_wf
def dot_S4x1024x1024_S4x1024x1024_S4x1024x1024_1_2_2_1_0_0 : DotDims S4x1024x1024 S4x1024x1024 S4x1024x1024 where
  lhsContracting := [1]
  rhsContracting := [2]
  lhsNonContracting := [2]
  rhsNonContracting := [1]
  lhsBatch := [0]
  rhsBatch := [0]
  wf := dot_S4x1024x1024_S4x1024x1024_S4x1024x1024_1_2_2_1_0_0_wf
def dot_S1024x4x1024_S1024x1024_S1024x4x1024_2_1_01_0_n_n : DotDims S1024x4x1024 S1024x1024 S1024x4x1024 where
  lhsContracting := [2]
  rhsContracting := [1]
  lhsNonContracting := [0, 1]
  rhsNonContracting := [0]
  lhsBatch := []
  rhsBatch := []
  wf := dot_S1024x4x1024_S1024x1024_S1024x4x1024_2_1_01_0_n_n_wf
def dot_S1024x4x1024_S4096x1024_S1024x4x4096_2_1_01_0_n_n : DotDims S1024x4x1024 S4096x1024 S1024x4x4096 where
  lhsContracting := [2]
  rhsContracting := [1]
  lhsNonContracting := [0, 1]
  rhsNonContracting := [0]
  lhsBatch := []
  rhsBatch := []
  wf := dot_S1024x4x1024_S4096x1024_S1024x4x4096_2_1_01_0_n_n_wf
def dot_S1024x4x4096_S1024x4096_S1024x4x1024_2_1_01_0_n_n : DotDims S1024x4x4096 S1024x4096 S1024x4x1024 where
  lhsContracting := [2]
  rhsContracting := [1]
  lhsNonContracting := [0, 1]
  rhsNonContracting := [0]
  lhsBatch := []
  rhsBatch := []
  wf := dot_S1024x4x4096_S1024x4096_S1024x4x1024_2_1_01_0_n_n_wf
def dot_S4096x1024_S1024x32000_S4096x32000_1_0_0_1_n_n : DotDims S4096x1024 S1024x32000 S4096x32000 where
  lhsContracting := [1]
  rhsContracting := [0]
  lhsNonContracting := [0]
  rhsNonContracting := [1]
  lhsBatch := []
  rhsBatch := []
  wf := dot_S4096x1024_S1024x32000_S4096x32000_1_0_0_1_n_n_wf

class Facts : Prop extends Facts₀ where

variable [Facts]
-- ==== Proof.KB.Reg0.lean ====
import proofs.«424417_j2491081031820_3_alg».proof.Proof.Gen.Kernel.Launch
import proofs.«424417_j2491081031820_3_alg».proof.Proof.Gen.Kernel.Skeleton
import proofs.«424417_j2491081031820_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

def out0_2 (x0 : Vec F S512x1024 .f32) (x1 : Vec F S1024x3072 .bf16) : Vec F S512x3072 .bf16 :=
  View.canon [⟨r0_2, k0_pay1 (View.ld x0 r0_0) (View.ld x1 r0_1)⟩]

/-- The body's triple: the input buffers are left as read, the output buffer holds the payload of the inputs. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S512x3072.size rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_2 (c : Dev nD) (t : Fin cfg0.N) : (dat0 V c).after 2 t = out0_2 (iblk0 V c 0 t) (iblk0 V c 1 t) := by dsimp only [dat0]

theorem before0 (c : Dev nD) (t : Fin cfg0.N) :
    (∀ d, (dat0 V c).before 0 t d = iblk0 V c 0 t) ∧ ∀ d, (dat0 V c).before 1 t d = iblk0 V c 1 t := by
  refine ⟨fun d => ?_, fun d => ?_⟩ <;>
    exact ((dat0 V c).before_in_eq_fetched _ rfl (fun _ => rfl) (fun _ _ _ => rfl) (fun t => by dsimp only [dat0]; rfl) t d).trans rfl

/-- At every point the input buffers hold their blocks, so the body's triple applies; the rest passes through. -/
theorem body_obligation0 (c : Dev nD) : BodyObligation (dat0 (F := F) V c) (defs₀ (F := F)) Variants.none () Set.univ := fun t => by
  rw [bigSep_W0, bigSep_W0]
  refine (show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.castSucc ∗ (dat0 V c).owesAt () t.castSucc
        ∗ owns (c : Thread nD τ) (st0_0 t) fullShare ((dat0 V c).after 0 t) ∗ owns (c : Thread nD τ) (st0_1 t) fullShare ((dat0 V c).after 1 t)
        ∗ owns (c : Thread nD τ) (st0_2 t) fullShare ((dat0 V c).after 2 t))) from ?_)
  unfold bodyAt0
  simp only [(before0 V c t).1, (before0 V c t).2]
  dsimp only [dat0]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  iframe

end Cert.Kernel.Hand

end
-- ==== Proof.KB.Reg1.lean ====
import proofs.«424417_j2491081031820_3_alg».proof.Proof.Gen.Kernel.Launch
import proofs.«424417_j2491081031820_3_alg».proof.Proof.Gen.Kernel.Skeleton
import proofs.«424417_j2491081031820_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x1024x1024 := Rect.unit (s := S1x1024x1024) ![0, 0, 0] S1x1024x1024.size inb_S1x1024x1024_S1x1024x1024_0_0_0

def out1_3 (x0 : Vec F S1x1024x1024 .bf16) (x1 : Vec F S1x1024x1024 .bf16) (x2 : Vec F S1x1024x1024 .bf16) : Vec F S1x1024x1024 .f32 :=
  View.canon [⟨r1_0, k1_pay1 (View.ld x0 r1_0) (View.ld x1 r1_0) (View.ld x2 r1_0)⟩]

/-- The body's triple: the input buffers are left as read, the output buffer holds the payload of the inputs. -/
theorem sound_kernel1 (c : Dev nD) (E : Set ℕ) (i : grid1.Coords) (arg1 : Memref sig .tc .vmem S1x1024x1024 .bf16) (harg1 : arg1.IsWhole) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .f32) (harg4 : arg4.IsWhole)
    (x0 : Vec F S1x1024x1024 .bf16) (x1 : Vec F S1x1024x1024 .bf16) (x2 : Vec F S1x1024x1024 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1x1024x1024.size rfl)

/-- Three windows share one array, so its full share is split in three. -/
def q1 : Fin cfg1.W → PosShare TreeShare := fun
  | ⟨0, _⟩ => fullShare.left
  | ⟨1, _⟩ => fullShare.right.left
  | ⟨2, _⟩ => fullShare.right.right
  | _ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem after1_3 (c : Dev nD) (t : Fin cfg1.N) :
    (dat1 V c).after 3 t = out1_3 (iblk1 V c 0 t) (iblk1 V c 1 t) (iblk1 V c 2 t) := by dsimp only [dat1]

theorem before1 (c : Dev nD) (t : Fin cfg1.N) : (∀ d, (dat1 V c).before 0 t d = iblk1 V c 0 t)
    ∧ (∀ d, (dat1 V c).before 1 t d = iblk1 V c 1 t) ∧ ∀ d, (dat1 V c).before 2 t d = iblk1 V c 2 t := by
  refine ⟨fun d => ?_, fun d => ?_, fun d => ?_⟩ <;>
    exact ((dat1 V c).before_in_eq_fetched _ rfl (fun _ => rfl) (fun _ _ _ => rfl) (fun t => by dsimp only [dat1]; rfl) t d).trans rfl

/-- At every point the input buffers hold their blocks, so the body's triple applies; the rest passes through. -/
theorem body_obligation1 (c : Dev nD) : BodyObligation (dat1 (F := F) V c) (defs₀ (F := F)) Variants.none () Set.univ := fun t => by
  rw [bigSep_W1, bigSep_W1]
  refine (show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.castSucc ∗ (dat1 V c).owesAt () t.castSucc
        ∗ owns (c : Thread nD τ) (st1_0 t) fullShare ((dat1 V c).after 0 t) ∗ owns (c : Thread nD τ) (st1_1 t) fullShare ((dat1 V c).after 1 t)
        ∗ owns (c : Thread nD τ) (st1_2 t) fullShare ((dat1 V c).after 2 t) ∗ owns (c : Thread nD τ) (st1_3 t) fullShare ((dat1 V c).after 3 t))) from ?_)
  unfold bodyAt1
  simp only [(before1 V c t).1, (before1 V c t).2.1, (before1 V c t).2.2]
  dsimp only [dat1]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  iframe

end Cert.Kernel.Hand

end
-- ==== Proof.KB.Reg2.lean ====
import proofs.«424417_j2491081031820_3_alg».proof.Proof.Gen.Kernel.Launch
import proofs.«424417_j2491081031820_3_alg».proof.Proof.Gen.Kernel.Skeleton
import proofs.«424417_j2491081031820_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S256x1024 := Rect.unit (s := S256x1024) ![0, 0] S256x1024.size inb_S256x1024_S256x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S1024x4096 := Rect.unit (s := S1024x4096) ![0, 0] S1024x4096.size inb_S1024x4096_S1024x4096_0_0
abbrev r2_4 : Rect S1x4096 := Rect.unit (s := S1x4096) ![0, 0] S1x4096.size inb_S1x4096_S1x4096_0_0
abbrev r2_5 : Rect S4096x1024 := Rect.unit (s := S4096x1024) ![0, 0] S4096x1024.size inb_S4096x1024_S4096x1024_0_0

def out2_12 (x0 x1 : Vec F S256x1024 .f32) (x2 : Vec F S1024x1024 .bf16) (x3 x4 x5 : Vec F S1x1024 .f32) (x6 : Vec F S1024x4096 .bf16) (x7 : Vec F S1x4096 .f32) (x8 : Vec F S4096x1024 .bf16) (x9 x10 x11 : Vec F S1x1024 .f32) : Vec F S256x1024 .bf16 :=
  View.canon [⟨r2_0, k2_pay3 (k2_pay1 (View.ld x0 r2_0) (View.ld x2 r2_1) (View.ld x3 r2_2) (View.ld x1 r2_0) (View.ld x4 r2_2) (View.ld x5 r2_2)) (k2_pay2 (View.ld x0 r2_0) (View.ld x2 r2_1) (View.ld x3 r2_2) (View.ld x1 r2_0) (View.ld x4 r2_2) (View.ld x5 r2_2)) (View.ld x6 r2_3) (View.ld x7 r2_4) (View.ld x8 r2_5) (View.ld x9 r2_2) (View.ld x10 r2_2) (View.ld x11 r2_2)⟩]

set_option maxHeartbeats 1000000 in
theorem sound_kernel2 (c : Dev nD) (E : Set ℕ) (i : grid2.Coords)
    (arg1 arg2 : Memref sig .tc .vmem S256x1024 .f32) (harg1 : arg1.IsWhole) (harg2 : arg2.IsWhole)
    (arg3 : Memref sig .tc .vmem S1024x1024 .bf16) (harg3 : arg3.IsWhole)
    (arg4 arg5 arg6 arg10 arg11 arg12 : Memref sig .tc .vmem S1x1024 .f32) (harg4 : arg4.IsWhole) (harg5 : arg5.IsWhole)
    (harg6 : arg6.IsWhole) (harg10 : arg10.IsWhole) (harg11 : arg11.IsWhole) (harg12 : arg12.IsWhole)
    (arg7 : Memref sig .tc .vmem S1024x4096 .bf16) (harg7 : arg7.IsWhole) (arg8 : Memref sig .tc .vmem S1x4096 .f32) (harg8 : arg8.IsWhole)
    (arg9 : Memref sig .tc .vmem S4096x1024 .bf16) (harg9 : arg9.IsWhole) (arg13 : Memref sig .tc .vmem S256x1024 .bf16) (harg13 : arg13.IsWhole)
    (x0 x1 : Vec F S256x1024 .f32) (x2 : Vec F S1024x1024 .bf16) (x3 x4 x5 x9 x10 x11 : Vec F S1x1024 .f32) (x6 : Vec F S1024x4096 .bf16)
    (x7 : Vec F S1x4096 .f32) (x8 : Vec F S4096x1024 .bf16) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ (∃ d, owns c arg13 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11
          ∗ owns c arg13 fullShare (out2_12 x0 x1 x2 x3 x4 x5 x6 x7 x8 x9 x10 x11)) -∗ K ⟨⟩))
      ⊢ wp frame (wpE (defs₀ (F := F)) Variants.none c none) E (cc2__post_kernel i arg1 harg1 arg2 harg2 arg3 harg3 arg4 harg4 arg5 harg5 arg6 harg6 arg7 harg7 arg8 harg8 arg9 harg9 arg10 harg10 arg11 harg11 arg12 harg12 arg13 harg13) K := by
  simp only [cc2__post_kernel_eq_skeleton]; unfold cc2__post_kernel_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  iexists _; isplitr
  swap; · iexact H12
  ipureintro
  exact View.read_writes_eq_canon _ _ _ (View.cover_of_tiled _ S256x1024.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
  Φ _ := Pipeline.ΦA spec2 c
  q _ := fullShare
  owed _ := 0

theorem after2_12 (c : Dev nD) (t : Fin cfg2.N) : (dat2 V c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) := by dsimp only [dat2]

theorem before2 (c : Dev nD) : ∀ w : Fin cfg2.W, w ≠ 12 → ∀ t d, (dat2 V c).before w t d = (dat2 V c).after w t
  | ⟨12, _⟩, h => absurd rfl h
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ | ⟨11, _⟩, _ => fun t d =>
    ((dat2 V c).before_in_eq_fetched _ rfl (fun _ => rfl) (fun _ _ _ => rfl) (fun _ => by dsimp only [dat2, Dat.blockOf, iblk2]) t d).trans
      (by unfold Dat.fetched Dat.blockOf; dsimp only [dat2, iblk2]; try rfl)

theorem sound_body2 (c : Dev nD) (t : Fin cfg2.N) :
    iprop((dat2 V c).Φ t.castSucc ∗ (dat2 V c).owesAt () t.castSucc
        ∗ bigSep Finset.univ fun w => iprop(∃ d, owns c ((cfg2.win w).stage (cfg2.slots t w)) fullShare ((dat2 V c).before w t d)))
      ⊢ wp frame (wpE (defs₀ (F := F)) Variants.none c none) Set.univ (bodyAt2 t) fun _ =>
        iprop((dat2 V c).Φ t.succ ∗ (dat2 V c).owesAt () t.succ
          ∗ bigSep Finset.univ fun w => owns c ((cfg2.win w).stage (cfg2.slots t w)) fullShare ((dat2 V c).after w t)) := by
  rw [bigSep_W2, bigSep_W2, show (dat2 V c).Φ t.succ = (dat2 V c).Φ t.castSucc from rfl,
    show (dat2 V c).owesAt () t.succ = (dat2 V c).owesAt () t.castSucc from rfl]
  simp +decide only [before2 V c]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel2 c Set.univ (grid2.coords t) _ _ _ _ _ _ _ _ _ _ _ _ _ _ _ _ _ _ _ _ _ _ _ _ _ _ ((dat2 V c).after 0 t) ((dat2 V c).after 1 t) ((dat2 V c).after 2 t) ((dat2 V c).after 3 t) ((dat2 V c).after 4 t) ((dat2 V c).after 5 t) ((dat2 V c).after 9 t) ((dat2 V c).after 10 t) ((dat2 V c).after 11 t) ((dat2 V c).after 6 t) ((dat2 V c).after 7 t) ((dat2 V c).after 8 t) _)
  iframe H0 H1 H2 H3 H4 H5 H6 H7 H8 H9 H10 H11
  isplitl [H12]; · iexists _; iexact H12
  iintro ⟨H0, H1, H2, H3, H4, H5, H6, H7, H8, H9, H10, H11, H12⟩
  iframe HΦ Ho H0 H1 H2 H3 H4 H5 H6 H7 H8 H9 H10 H11
  istop; dsimp only [dat2]; exact .rfl

theorem body_obligation2 (c : Dev nD) : BodyObligation (dat2 (F := F) V c) (defs₀ (F := F)) Variants.none () Set.univ :=
  sound_body2 V c

end Cert.Kernel.Hand

end
-- ==== Proof.KB.Reg3.lean ====
import proofs.«424417_j2491081031820_3_alg».proof.Proof.Gen.Kernel.Launch
import proofs.«424417_j2491081031820_3_alg».proof.Proof.Gen.Kernel.Skeleton
import proofs.«424417_j2491081031820_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S512x1024 := Rect.unit (s := S512x1024) ![0, 0] S512x1024.size inb_S512x1024_S512x1024_0_0
abbrev r3_1 : Rect S1280x1024 := Rect.unit (s := S1280x1024) ![0, 0] S1280x1024.size inb_S1280x1024_S1280x1024_0_0
abbrev r3_2 : Rect S1x1280 := Rect.unit (s := S1x1280) ![0, 0] S1x1280.size inb_S1x1280_S1x1280_0_0
abbrev r3_3 : Rect S512x1280 := Rect.unit (s := S512x1280) ![0, 0] S512x1280.size inb_S512x1280_S512x1280_0_0

def out3_3 (x0 : Vec F S512x1024 .bf16) (x1 : Vec F S1280x1024 .f32) (x2 : Vec F S1x1280 .f32) : Vec F S512x1280 .f32 :=
  View.canon [⟨r3_3, k3_pay1 (View.ld x0 r3_0) (View.ld x1 r3_1) (View.ld x2 r3_2)⟩]

/-- The body's triple: the input buffers are left as read, the output buffer holds the payload of the inputs. -/
theorem sound_kernel3 (c : Dev nD) (E : Set ℕ) (i : grid3.Coords)
    (arg2 : Memref sig .tc .vmem S512x1024 .bf16) (harg2 : arg2.IsWhole) (arg3 : Memref sig .tc .vmem S1280x1024 .f32) (harg3 : arg3.IsWhole)
    (arg4 : Memref sig .tc .vmem S1x1280 .f32) (harg4 : arg4.IsWhole) (arg5 : Memref sig .tc .vmem S512x1280 .f32) (harg5 : arg5.IsWhole)
    (x0 : Vec F S512x1024 .bf16) (x1 : Vec F S1280x1024 .f32) (x2 : Vec F S1x1280 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3_3 x0 x1 x2)) -∗ K ⟨⟩))
      ⊢ wp frame (wpE (defs₀ (F := F)) Variants.none c none) E (cc3__decoder_kernel i arg2 harg2 arg3 harg3 arg4 harg4 arg5 harg5) K := by
  simp only [cc3__decoder_kernel_eq_skeleton]; unfold cc3__decoder_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S512x1280.size rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem after3_3 (c : Dev nD) (t : Fin cfg3.N) :
    (dat3 V c).after 3 t = out3_3 (iblk3 V c 0 t) (iblk3 V c 1 t) (iblk3 V c 2 t) := by dsimp only [dat3]

theorem before3 (c : Dev nD) (t : Fin cfg3.N) : (∀ d, (dat3 V c).before 0 t d = iblk3 V c 0 t)
    ∧ (∀ d, (dat3 V c).before 1 t d = iblk3 V c 1 t) ∧ ∀ d, (dat3 V c).before 2 t d = iblk3 V c 2 t := by
  refine ⟨fun d => ?_, fun d => ?_, fun d => ?_⟩ <;>
    exact ((dat3 V c).before_in_eq_fetched _ rfl (fun _ => rfl) (fun _ _ _ => rfl) (fun t => by dsimp only [dat3]; rfl) t d).trans rfl

/-- At every point the input buffers hold their blocks, so the body's triple applies; the rest passes through. -/
theorem body_obligation3 (c : Dev nD) : BodyObligation (dat3 (F := F) V c) (defs₀ (F := F)) Variants.none () Set.univ := fun t => by
  rw [bigSep_W3, bigSep_W3]
  refine (show iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d)))
    ⊢ wp frame (wpE (defs₀ (F := F)) Variants.none c none) Set.univ (bodyAt3 t) (fun _ =>
      iprop((dat3 V c).Φ t.castSucc ∗ (dat3 V c).owesAt () t.castSucc
        ∗ owns (c : Thread nD τ) (st3_0 t) fullShare ((dat3 V c).after 0 t) ∗ owns (c : Thread nD τ) (st3_1 t) fullShare ((dat3 V c).after 1 t)
        ∗ owns (c : Thread nD τ) (st3_2 t) fullShare ((dat3 V c).after 2 t) ∗ owns (c : Thread nD τ) (st3_3 t) fullShare ((dat3 V c).after 3 t))) from ?_)
  unfold bodyAt3
  simp only [(before3 V c t).1, (before3 V c t).2.1, (before3 V c t).2.2]
  dsimp only [dat3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  iframe

end Cert.Kernel.Hand

end
-- ==== Proof.KB.RunBase.lean ====
import proofs.«424417_j2491081031820_3_alg».proof.Proof.KB.Reg0
import proofs.«424417_j2491081031820_3_alg».proof.Proof.KB.Reg1
import proofs.«424417_j2491081031820_3_alg».proof.Proof.KB.Reg2
import proofs.«424417_j2491081031820_3_alg».proof.Proof.KB.Reg3
import proofs.«424417_j2491081031820_3_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Gen.Outs (F := F))

abbrev E0 : (c : Dev nD) → (b : Ref sig .tc) → Buf (Elt F) ((c : Thread nD τ).loc b) := fun c b => Gen.V2 m c b
abbrev E1 : (c : Dev nD) → (b : Ref sig .tc) → Buf (Elt F) ((c : Thread nD τ).loc b) := fun c b => Gen.V4 m outs c b
abbrev E2 : (c : Dev nD) → (b : Ref sig .tc) → Buf (Elt F) ((c : Thread nD τ).loc b) := fun c b => Gen.V6 m outs c b
abbrev E3 : (c : Dev nD) → (b : Ref sig .tc) → Buf (Elt F) ((c : Thread nD τ).loc b) := fun c b => Gen.V8 m outs c b

/-- Each unknown of the chain is what its call leaves in its output array. -/
structure OutsOK : Prop where
  h3 : ∀ c : Dev nD, outs 3 main_v5 c = (dat0 (E0 m) c).arrAt 2 cfg0.N
  h5 : ∀ c : Dev nD, outs 5 main_v8 c = (dat1 (E1 m outs) c).arrAt 3 cfg1.N
  h7 : ∀ c : Dev nD, outs 7 main_v24 c = (dat2 (E2 m outs) c).arrAt 12 cfg2.N
  h9 : ∀ c : Dev nD, outs 9 main_v26 c = (dat3 (E3 m outs) c).arrAt 3 cfg3.N

def pdats : (p : Fin 4) → (c : Dev nD) → Dat τ (Elt F) Unit ℕ (UR sig nD τ) ℕ (cfgs p) c
  | ⟨0, _⟩ => fun c => dat0 (E0 m) c
  | ⟨1, _⟩ => fun c => dat1 (E1 m outs) c
  | ⟨2, _⟩ => fun c => dat2 (E2 m outs) c
  | ⟨3, _⟩ => fun c => dat3 (E3 m outs) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem V3_out (c : Dev nD) : Gen.V3 m outs c main_v5 = outs 3 main_v5 c := Function.update_self _ _ _
theorem V5_out (c : Dev nD) : Gen.V5 m outs c main_v8 = outs 5 main_v8 c := Function.update_self _ _ _
theorem V7_out (c : Dev nD) : Gen.V7 m outs c main_v24 = outs 7 main_v24 c := Function.update_self _ _ _
theorem V9_out (c : Dev nD) : Gen.V9 m outs c main_v26 = outs 9 main_v26 c := Function.update_self _ _ _

theorem pdats_at : ∀ (p : Fin 4) (c : Dev nD) i, (pdats m outs p c).Φ i = Pipeline.ΦA (cfgs p).spec c
      ∧ (pdats m outs p c).owed i = 0 ∧ (pdats m outs p c).recorded i = Set.univ
  | ⟨0, _⟩, _, _ | ⟨1, _⟩, _, _ | ⟨2, _⟩, _, _ | ⟨3, _⟩, _, _ => ⟨rfl, rfl, rfl⟩

set_option backward.isDefEq.respectTransparency.types false in
/-- A call as an item of the run, from its body obligation and the exchange of its arrays with the held buffers at entry (`V`) and exit (`V'`). -/
def regOf (p : Fin 4) (win : Pipeline.WinFacts₀ (pcfgs (F := F) p).spec) (bp : ∀ w, 0 < ((pcfgs (F := F) p).spec w).block.numel)
    (sw : ∀ w s, (((pcfgs (F := F) p).spec w).stage s).IsWhole)
    (hb : ∀ c, BodyObligation (pdats m outs p c) (defs₀ (F := F)) 𝒱₀ () Set.univ)
    (V V' : (c : Dev nD) → Valuation τ sig (Elt F))
    (hen : ∀ c : Dev nD, (StableHlo.held (c : Thread nD τ) (Pipeline.ucRefs τ sig) (V c) : sProp 𝕄)
      ⊢ iprop((pdats m outs p c).arrays ((pdats m outs p c).arrAt · 0)
          ∗ Pipeline.unscopedRest (Ix := Unit) (Name := ℕ) (U := UR sig nD τ) (Lvl := ℕ) (cfgs p).spec c fun b => V c b))
    (hex : ∀ c : Dev nD, iprop((pdats m outs p c).arrays ((pdats m outs p c).arrAt · (cfgs p).N)
          ∗ Pipeline.unscopedRest (Ix := Unit) (Name := ℕ) (U := UR sig nD τ) (Lvl := ℕ) (cfgs p).spec c fun b => V c b)
      ⊢ (StableHlo.held (c : Thread nD τ) (Pipeline.ucRefs τ sig) (V' c) : sProp 𝕄)) :
    RegionSeg (pcfgs (F := F)) Gen.adm (pdats m outs) () defs₀ 𝒱₀ L lv p where
  win := win
  block_pos := bp
  stage_whole := sw
  K := PEmpty
  osem k := k.elim
  ho := Pipeline.OwnSemFacts.none _
  hbody c := (hb c).loose
  hwaits := Pipeline.hwaits_of_owed_zero _ _ _ _ L lv p fun c t => (pdats_at m outs p c t).2.1
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    iintro ⟨⟨Hub, Hp, HO⟩, -, -⟩
    ihave H := hen c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(pdats_at m outs p c 0).2.1]
      icases HO with ⟨%W, HO⟩; iexists W; isplitr; · ipureintro; exact fun _ _ => Or.inl (by rw [(pdats_at m outs p c 0).2.2]; trivial)
      iexact HO
    isplitl [Hp]; · iexact Hp
    iexact Hrest
  hin c := by
    rw [(pdats_at m outs p c 0).1]; unfold Pipeline.ΦA
    iintro ⟨Hp, -, Hr⟩
    isplitl [Hr]; · iexact Hr
    iexact Hp
  hout c := by
    rw [Pipeline.ownSems0_none, (pdats_at m outs p c _).1]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply hex c; isplitl [Ha] <;> iassumption
    isplitl [HY]; · iexact HY
    unfold Pipeline.Dat.owesAt Pipeline.owesWithin
    rw [(pdats_at m outs p c _).2.1]
    icases HO with ⟨%W, -, HO⟩; iexists W; iexact HO

end Cert.Kernel.Hand

end
-- ==== Proof.KB.Run0.lean ====
import proofs.«424417_j2491081031820_3_alg».proof.Proof.KB.RunBase

set_option maxRecDepth 16384

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F]

variable (m : (ℓ : Loc nD τ sig) → Buf (Elt F) ℓ) (outs : Gen.Outs (F := F))

set_option backward.isDefEq.respectTransparency.types false in
/-- Call 0: its arrays are distinct whole buffers, read off the contents before it and put back with the output replaced. -/
def reg0 (hO : OutsOK m outs) : RegionSeg (pcfgs (F := F)) Gen.adm (pdats m outs) () defs₀ 𝒱₀ L lv 0 :=
  regOf m outs 0 launch0.win.to₀ launch0.block_pos launch0.stage_whole (body_obligation0 (E0 m)) (Gen.V2 m) (Gen.V3 m outs)
    (fun c => by
      have h := Pipeline.arrays_of_unscopedBufs (p := 0) (pcfgs (F := F)) Gen.adm (pdats m outs) launch0.win launch0.arr_whole c
        ((pdats m outs 0 c).share_full fun _ => rfl) (E0 m c) fun _ => rfl
      rwa [Pipeline.unscopedBufs_held] at h)
    (fun c => by
      have h := Pipeline.unscopedBufs_of_arrays (p := 0) (pcfgs (F := F)) Gen.adm (Ix := Unit) (Name := ℕ) (U := UR sig nD τ) (Lvl := ℕ)
        launch0.win launch0.arr_whole c (pdats m outs) ((pdats m outs 0 c).share_full fun _ => rfl)
        (E0 m c) (fun b => Gen.V3 m outs c b) ((pdats m outs 0 c).arrAt · cfg0.N)
        (fun w => by
          match w with
          | ⟨2, _⟩ => exact (hO.h3 c).symm.trans (V3_out m outs c).symm
          | ⟨0, _⟩ => exact ((pdats m outs 0 c).arrAt_in 0 rfl _).trans (Gen.V3_of m outs c main_v1 (by decide)).symm
          | ⟨1, _⟩ => exact ((pdats m outs 0 c).arrAt_in 1 rfl _).trans (Gen.V3_of m outs c main_v4 (by decide)).symm)
        (fun b hb => Gen.V3_of m outs c b (fun h => hb (by
          rw [List.mem_singleton] at h; subst h; exact Finset.mem_image.mpr ⟨2, Finset.mem_univ _, rfl⟩)))
      rwa [Pipeline.unscopedBufs_held] at h)

end Cert.Kernel.Hand

end
-- ==== Proof.KB.Run1.lean ====
import proofs.«424417_j2491081031820_3_alg».proof.Proof.KB.RunBase

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (outs : Gen.Outs (F := F))

theorem img1 : Finset.univ.image (Pipeline.arrRef spec1) = ({main_v7, main_v8} : Finset (Ref sig .tc)) := by decide

/-- The call's two buffers at contents `W` are its arrays at contents read off `W`: the shared buffer's full share splits in three and joins back. -/
theorem arrays1 (c : Dev nD) (W : (b : Ref sig .tc) → Buf (Elt F) ((c : Thread nD τ).loc b))
    (A : (w : Fin cfg1.W) → Buf (Elt F) (((cfgs 1).win w).arr.view.loc (c : Thread nD τ))) (hA : ∀ w, A w = W (Pipeline.arrRef spec1 w)) :
    ((Pipeline.arrBufs (Ix := Unit) (Name := ℕ) (U := UR sig nD τ) (Lvl := ℕ) spec1 c W : sProp 𝕄) ⊢ (pdats m outs 1 c).arrays A)
      ∧ ((pdats m outs 1 c).arrays A ⊢ (Pipeline.arrBufs (Ix := Unit) (Name := ℕ) (U := UR sig nD τ) (Lvl := ℕ) spec1 c W : sProp 𝕄)) := by
  unfold Pipeline.arrBufs Pipeline.Dat.arrays
  rw [img1, bigSep_insert (by decide), bigSep_singleton, bigSep_W1]
  rw [show (pdats m outs 1 c).share 0 = fullShare.left from rfl, show (pdats m outs 1 c).share 1 = fullShare.right.left from rfl,
    show (pdats m outs 1 c).share 2 = fullShare.right.right from rfl, show (pdats m outs 1 c).share 3 = fullShare from rfl,
    show ((cfgs 1).win 0).arr.view.set = Finset.univ from (arr_whole1 0).set_eq_univ, show ((cfgs 1).win 1).arr.view.set = Finset.univ from (arr_whole1 1).set_eq_univ,
    show ((cfgs 1).win 2).arr.view.set = Finset.univ from (arr_whole1 2).set_eq_univ, show ((cfgs 1).win 3).arr.view.set = Finset.univ from (arr_whole1 3).set_eq_univ,
    hA 0, hA 1, hA 2, hA 3]
  have h7 := pointsTo_share (Ix := Unit) (Name := ℕ) (U := UR sig nD τ) (Lvl := ℕ) (ℓ := (c : Thread nD τ).loc main_v7) (I := Finset.univ)
    (f := W main_v7) (PosShare.mem_left_op_right fullShare)
  have h7r := pointsTo_share (Ix := Unit) (Name := ℕ) (U := UR sig nD τ) (Lvl := ℕ) (ℓ := (c : Thread nD τ).loc main_v7) (I := Finset.univ)
    (f := W main_v7) (PosShare.mem_left_op_right fullShare.right)
  constructor
  · refine (show (iprop((((c : Thread nD τ).loc main_v7) ↦{fullShare} W main_v7) ∗ (((c : Thread nD τ).loc main_v8) ↦{fullShare} W main_v8)) : sProp 𝕄) ⊢ _ from ?_)
    iintro ⟨H7, H8⟩
    ihave H := h7.1 $$ H7
    icases H with ⟨Ha, Hr⟩
    ihave H' := h7r.1 $$ Hr
    icases H' with ⟨Hb, Hc⟩
    isplitl [Ha]; · iexact Ha
    isplitl [Hb]; · iexact Hb
    isplitl [Hc]; · iexact Hc
    iexact H8
  · refine (show _ ⊢ (iprop((((c : Thread nD τ).loc main_v7) ↦{fullShare} W main_v7) ∗ (((c : Thread nD τ).loc main_v8) ↦{fullShare} W main_v8)) : sProp 𝕄) from ?_)
    iintro ⟨Ha, Hb, Hc, H8⟩
    isplitr [H8]
    · iapply h7.2
      isplitl [Ha]; · iexact Ha
      iapply h7r.2
      isplitl [Hb]; · iexact Hb
      iexact Hc
    iexact H8

theorem entry1 (c : Dev nD) :
    (StableHlo.held (c : Thread nD τ) (Pipeline.ucRefs τ sig) (Gen.V4 m outs c) : sProp 𝕄)
      ⊢ iprop((pdats m outs 1 c).arrays ((pdats m outs 1 c).arrAt · 0)
          ∗ Pipeline.unscopedRest (Ix := Unit) (Name := ℕ) (U := UR sig nD τ) (Lvl := ℕ) spec1 c (E1 m outs c)) := by
  rw [← Pipeline.unscopedBufs_held (Ix := Unit) (Name := ℕ) (U := UR sig nD τ) (Lvl := ℕ) c (Gen.V4 m outs c),
    Pipeline.unscopedBufs_split₀ (Pipeline.pin (pcfgs (F := F)) Gen.adm) 1 winFacts₀1.arr_unscoped c]
  exact sep_mono (arrays1 m outs c _ _ fun _ => rfl).1 .rfl

theorem exit1 (hO : OutsOK m outs) (c : Dev nD) :
    iprop((pdats m outs 1 c).arrays ((pdats m outs 1 c).arrAt · cfg1.N)
        ∗ Pipeline.unscopedRest (Ix := Unit) (Name := ℕ) (U := UR sig nD τ) (Lvl := ℕ) spec1 c (E1 m outs c))
      ⊢ (StableHlo.held (c : Thread nD τ) (Pipeline.ucRefs τ sig) (Gen.V5 m outs c) : sProp 𝕄) := by
  rw [← Pipeline.unscopedBufs_held (Ix := Unit) (Name := ℕ) (U := UR sig nD τ) (Lvl := ℕ) c (Gen.V5 m outs c),
    Pipeline.unscopedBufs_split₀ (Pipeline.pin (pcfgs (F := F)) Gen.adm) 1 winFacts₀1.arr_unscoped c]
  refine sep_mono (arrays1 m outs c _ _ fun w => ?_).2 (Entails.of_eq ?_)
  · match w with
    | ⟨3, _⟩ => exact (hO.h5 c).symm.trans (V5_out m outs c).symm
    | ⟨0, _⟩ => exact ((pdats m outs 1 c).arrAt_in 0 rfl _).trans (Gen.V5_of m outs c main_v7 (by decide)).symm
    | ⟨1, _⟩ => exact ((pdats m outs 1 c).arrAt_in 1 rfl _).trans (Gen.V5_of m outs c main_v7 (by decide)).symm
    | ⟨2, _⟩ => exact ((pdats m outs 1 c).arrAt_in 2 rfl _).trans (Gen.V5_of m outs c main_v7 (by decide)).symm
  · unfold Pipeline.unscopedRest
    exact bigSep_congr fun b hb => congrArg _ (Gen.V5_of m outs c b (fun h => (Finset.mem_sdiff.mp hb).2 (by
      rw [List.mem_singleton] at h; subst h; exact Finset.mem_image.mpr ⟨3, Finset.mem_univ _, rfl⟩))).symm

set_option backward.isDefEq.respectTransparency.types false in
/-- Call 1: its three input windows read one array, whose full share is split three ways on entry and joined on exit. -/
def reg1 (hO : OutsOK m outs) : RegionSeg (pcfgs (F := F)) Gen.adm (pdats m outs) () defs₀ 𝒱₀ L lv 1 :=
  regOf m outs 1 winFacts₀1 block_pos1 stage_whole1 (body_obligation1 (E1 m outs)) (Gen.V4 m outs) (Gen.V5 m outs)
    (entry1 m outs) (exit1 m outs hO)

end Cert.Kernel.Hand

end
-- ==== Proof.KB.Run2.lean ====
import proofs.«424417_j2491081031820_3_alg».proof.Proof.KB.RunBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Gen.Outs (F := F))

set_option maxHeartbeats 4000000 in
set_option backward.isDefEq.respectTransparency.types false in
def reg2 (hO : OutsOK m outs) : RegionSeg (pcfgs (F := F)) Gen.adm (pdats m outs) () defs₀ 𝒱₀ L lv 2 :=
  regOf m outs 2 launch2.win.to₀ launch2.block_pos launch2.stage_whole (body_obligation2 (E2 m outs)) (Gen.V6 m outs) (Gen.V7 m outs)
    (fun c => by
      have h := Pipeline.arrays_of_unscopedBufs (p := 2) (pcfgs (F := F)) Gen.adm (pdats m outs) launch2.win launch2.arr_whole c
        ((pdats m outs 2 c).share_full fun _ => rfl) (E2 m outs c) fun _ => rfl
      rwa [Pipeline.unscopedBufs_held] at h)
    fun c => by
      have h := Pipeline.unscopedBufs_of_arrays (p := 2) (pcfgs (F := F)) Gen.adm (Ix := Unit) (Name := ℕ) (U := UR sig nD τ) (Lvl := ℕ)
        launch2.win launch2.arr_whole c (pdats m outs) ((pdats m outs 2 c).share_full fun _ => rfl)
        (E2 m outs c) (fun b => Gen.V7 m outs c b) ((pdats m outs 2 c).arrAt · cfg2.N)
        (fun w => by
          match w with
          | ⟨0, _⟩ => exact ((pdats m outs 2 c).arrAt_in 0 rfl _).trans (Gen.V7_of m outs c main_v10 (by decide)).symm
          | ⟨1, _⟩ => exact ((pdats m outs 2 c).arrAt_in 1 rfl _).trans (Gen.V7_of m outs c main_v1 (by decide)).symm
          | ⟨2, _⟩ => exact ((pdats m outs 2 c).arrAt_in 2 rfl _).trans (Gen.V7_of m outs c main_v12 (by decide)).symm
          | ⟨3, _⟩ => exact ((pdats m outs 2 c).arrAt_in 3 rfl _).trans (Gen.V7_of m outs c main_v17 (by decide)).symm
          | ⟨4, _⟩ => exact ((pdats m outs 2 c).arrAt_in 4 rfl _).trans (Gen.V7_of m outs c main_v20 (by decide)).symm
          | ⟨5, _⟩ => exact ((pdats m outs 2 c).arrAt_in 5 rfl _).trans (Gen.V7_of m outs c main_v21 (by decide)).symm
          | ⟨6, _⟩ => exact ((pdats m outs 2 c).arrAt_in 6 rfl _).trans (Gen.V7_of m outs c main_v14 (by decide)).symm
          | ⟨7, _⟩ => exact ((pdats m outs 2 c).arrAt_in 7 rfl _).trans (Gen.V7_of m outs c main_v18 (by decide)).symm
          | ⟨8, _⟩ => exact ((pdats m outs 2 c).arrAt_in 8 rfl _).trans (Gen.V7_of m outs c main_v16 (by decide)).symm
          | ⟨9, _⟩ => exact ((pdats m outs 2 c).arrAt_in 9 rfl _).trans (Gen.V7_of m outs c main_v19 (by decide)).symm
          | ⟨10, _⟩ => exact ((pdats m outs 2 c).arrAt_in 10 rfl _).trans (Gen.V7_of m outs c main_v22 (by decide)).symm
          | ⟨11, _⟩ => exact ((pdats m outs 2 c).arrAt_in 11 rfl _).trans (Gen.V7_of m outs c main_v23 (by decide)).symm
          | ⟨12, _⟩ => exact (hO.h7 c).symm.trans (V7_out m outs c).symm)
        (fun b hb => Gen.V7_of m outs c b (fun h => hb (by
          rw [List.mem_singleton] at h; subst h; exact Finset.mem_image.mpr ⟨12, Finset.mem_univ _, rfl⟩)))
      rwa [Pipeline.unscopedBufs_held] at h

end Cert.Kernel.Hand

end
-- ==== Proof.KB.Run3.lean ====
import proofs.«424417_j2491081031820_3_alg».proof.Proof.KB.RunBase

set_option maxRecDepth 16384

noncomputable section

namespace Cert.Kernel.Hand

open Cert.Kernel Cert.Kernel.Gen
open Idealize.ShloMosaic Idealize.ShloMosaic.TcCoe
open Idealize.ShloMosaic.Pipeline (RegionSeg)

variable {F : FTy → Type} [FloatOps F]

variable (m : (ℓ : Loc nD τ sig) → Buf (Elt F) ℓ) (outs : Gen.Outs (F := F))

set_option maxHeartbeats 4000000 in
set_option backward.isDefEq.respectTransparency.types false in
/-- Call 3: its arrays are distinct whole buffers, read off the contents before it and put back with the output replaced. -/
def reg3 (hO : OutsOK m outs) : RegionSeg (pcfgs (F := F)) Gen.adm (pdats m outs) () defs₀ 𝒱₀ L lv 3 :=
  regOf m outs 3 launch3.win.to₀ launch3.block_pos launch3.stage_whole (body_obligation3 (E3 m outs)) (Gen.V8 m outs) (Gen.V9 m outs)
    (fun c => by
      have h := Pipeline.arrays_of_unscopedBufs (p := 3) (pcfgs (F := F)) Gen.adm (pdats m outs) launch3.win launch3.arr_whole c
        ((pdats m outs 3 c).share_full fun _ => rfl) (E3 m outs c) fun _ => rfl
      rwa [Pipeline.unscopedBufs_held] at h)
    (fun c => by
      have h := Pipeline.unscopedBufs_of_arrays (p := 3) (pcfgs (F := F)) Gen.adm (Ix := Unit) (Name := ℕ) (U := UR sig nD τ) (Lvl := ℕ)
        launch3.win launch3.arr_whole c (pdats m outs) ((pdats m outs 3 c).share_full fun _ => rfl)
        (E3 m outs c) (fun b => Gen.V9 m outs c b) ((pdats m outs 3 c).arrAt · cfg3.N)
        (fun w => by
          match w with
          | ⟨3, _⟩ => exact (hO.h9 c).symm.trans (V9_out m outs c).symm
          | ⟨0, _⟩ => exact ((pdats m outs 3 c).arrAt_in 0 rfl _).trans (Gen.V9_of m outs c main_v24 (by decide)).symm
          | ⟨1, _⟩ => exact ((pdats m outs 3 c).arrAt_in 1 rfl _).trans (Gen.V9_of m outs c main_arg15 (by decide)).symm
          | ⟨2, _⟩ => exact ((pdats m outs 3 c).arrAt_in 2 rfl _).trans (Gen.V9_of m outs c main_v25 (by decide)).symm)
        (fun b hb => Gen.V9_of m outs c b (fun h => hb (by
          rw [List.mem_singleton] at h; subst h; exact Finset.mem_image.mpr ⟨3, Finset.mem_univ _, rfl⟩)))
      rwa [Pipeline.unscopedBufs_held] at h)

end Cert.Kernel.Hand

end
-- ==== Proof.KB.Outs.lean ====
import proofs.«424417_j2491081031820_3_alg».proof.Proof.KB.RunBase

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

def o3 (c : Dev nD) : Buf (Elt F) ((c : Thread nD τ).loc main_v5) := (dat0 (E0 m) c).arrAt 2 cfg0.N
def W4 (c : Dev nD) : Valuation τ sig (Elt F) := StableHlo.after hostOps1 (Function.update (Gen.V2 m c) main_v5 (o3 m c))
def o5 (c : Dev nD) : Buf (Elt F) ((c : Thread nD τ).loc main_v8) := (dat1 (fun c b => W4 m c b) c).arrAt 3 cfg1.N
def W6 (c : Dev nD) : Valuation τ sig (Elt F) := StableHlo.after hostOps2 (Function.update (W4 m c) main_v8 (o5 m c))
def o7 (c : Dev nD) : Buf (Elt F) ((c : Thread nD τ).loc main_v24) := (dat2 (fun c b => W6 m c b) c).arrAt 12 cfg2.N
def W8 (c : Dev nD) : Valuation τ sig (Elt F) := StableHlo.after hostOps3 (Function.update (W6 m c) main_v24 (o7 m c))
def o9 (c : Dev nD) : Buf (Elt F) ((c : Thread nD τ).loc main_v26) := (dat3 (fun c b => W8 m c b) c).arrAt 3 cfg3.N

/-- The unknowns of the chain, each call's result computed from the contents the earlier results fix. -/
def outsD : Gen.Outs (F := F) := fun _ r c =>
  Function.update (Function.update (Function.update (Function.update (fun r => m ((c : Thread nD τ).loc r))
    main_v5 (o3 m c)) main_v8 (o5 m c)) main_v24 (o7 m c)) main_v26 (o9 m c) r

theorem outsD_v5 (J : ℕ) (c : Dev nD) : outsD m J main_v5 c = o3 m c :=
  (Function.update_of_ne (by decide +revert) _ _).trans ((Function.update_of_ne (by decide +revert) _ _).trans
    ((Function.update_of_ne (by decide +revert) _ _).trans (Function.update_self _ _ _)))
theorem outsD_v8 (J : ℕ) (c : Dev nD) : outsD m J main_v8 c = o5 m c :=
  (Function.update_of_ne (by decide +revert) _ _).trans ((Function.update_of_ne (by decide +revert) _ _).trans (Function.update_self _ _ _))
theorem outsD_v24 (J : ℕ) (c : Dev nD) : outsD m J main_v24 c = o7 m c :=
  (Function.update_of_ne (by decide +revert) _ _).trans (Function.update_self _ _ _)

/-- The contents a call is entered from read only the earlier calls' results. -/
theorem V4_outsD (c : Dev nD) : Gen.V4 m (outsD m) c = W4 m c :=
  congrArg (fun x => StableHlo.after hostOps1 (Function.update (Gen.V2 m c) main_v5 x)) (outsD_v5 m 3 c)
theorem V6_outsD (c : Dev nD) : Gen.V6 m (outsD m) c = W6 m c :=
  congrArg₂ (fun V x => StableHlo.after hostOps2 (Function.update V main_v8 x)) (V4_outsD m c) (outsD_v8 m 5 c)
theorem V8_outsD (c : Dev nD) : Gen.V8 m (outsD m) c = W8 m c :=
  congrArg₂ (fun V x => StableHlo.after hostOps3 (Function.update V main_v24 x)) (V6_outsD m c) (outsD_v24 m 7 c)

theorem outsD_ok : OutsOK m (outsD m) where
  h3 c := outsD_v5 m 3 c
  h5 c := (outsD_v8 m 5 c).trans (congrArg (fun V => (dat1 V c).arrAt 3 cfg1.N)
    (funext fun c => funext fun b => (congrFun (V4_outsD m c) b).symm))
  h7 c := (outsD_v24 m 7 c).trans (congrArg (fun V => (dat2 V c).arrAt 12 cfg2.N)
    (funext fun c => funext fun b => (congrFun (V6_outsD m c) b).symm))
  h9 c := (Function.update_self _ _ _).trans (congrArg (fun V => (dat3 V c).arrAt 3 cfg3.N)
    (funext fun c => funext fun b => (congrFun (V8_outsD m c) b).symm))

end Cert.Kernel.Hand

end
-- ==== Proof.KB.Frame.lean ====
import proofs.«424417_j2491081031820_3_alg».proof.Proof.KB.Run0
import proofs.«424417_j2491081031820_3_alg».proof.Proof.KB.Run1
import proofs.«424417_j2491081031820_3_alg».proof.Proof.KB.Run2
import proofs.«424417_j2491081031820_3_alg».proof.Proof.KB.Run3
import proofs.«424417_j2491081031820_3_alg».proof.Proof.KB.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Every weakly fair execution of @main terminates, and no host stretch or call writes an argument. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Gen.frame_cond m emb₁ () 𝒱₀ L lv (fun _ _ => rfl) ρ (outsD m) (pdats m (outsD m)) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ emp) : sProp 𝕄) ⊢ R c := fun c => by
        iintro ⟨-, HO, -, Hp, -⟩
        isplitl [Hp]; · iexists _; iexact Hp
        iexists ∅; iexact HO
      have hmono : (bigSep Finset.univ (fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ emp)) : sProp 𝕄)
          ⊢ bigSep Finset.univ (fun c : Dev nD => R c) :=
        bigSep_mono fun c _ => hcore c
      iintro ⟨H, -⟩
      imodintro
      iapply hmono
      iexact H)
    (fun c => by iintro ⟨-, H⟩; iexact H)
    (reg0 m (outsD m) (outsD_ok m)) (fun _ => .rfl) (fun _ => .rfl)
    (reg1 m (outsD m) (outsD_ok m)) (fun _ => .rfl) (fun _ => .rfl)
    (reg2 m (outsD m) (outsD_ok m)) (fun _ => .rfl) (fun _ => .rfl)
    (reg3 m (outsD m) (outsD_ok m)) (fun _ => .rfl) (fun _ => .rfl)

end Cert.Kernel.Hand

end
-- ==== Proof.Ref.Ops.lean ====
import proofs.«424417_j2491081031820_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

-- The token indices brought into range (a negative one has the 32000 rows added) and the embedding rows gathered at them.
abbrev opsEmb : List (HloOp τ sig (Elt F)) :=
  [ StableHlo.nullary main_c (constantI S_ 32 0#32),
    StableHlo.unary main_c main_v0 (broadcastInDim S1024x4 ![] bcast_S_S1024x4),
    StableHlo.binary main_arg0 main_v0 main_v1 (cmpi .slt),
    StableHlo.nullary main_c_0 (constantI S_ 32 32000#32),
    StableHlo.unary main_c_0 main_v2 (broadcastInDim S1024x4 ![] bcast_S_S1024x4),
    StableHlo.binary main_arg0 main_v2 main_v3 addi,
    StableHlo.ternary main_v1 main_v3 main_arg0 main_v4 select,
    StableHlo.unary main_v4 main_v5 (broadcastInDim S1024x4x1 ![0, 1] bcast_S1024x4_S1024x4x1_0_1),
    StableHlo.binary main_arg1 main_v5 main_v6 (fun x i => Host.gather gather_S32000x1024_S1024x4x1_S1024x4x1024_2_0_n_n_0_2_11024 x i) ]

-- The three projections of the embeddings, each transposed so that the batch axis leads.
abbrev opsQKV : List (HloOp τ sig (Elt F)) :=
  [ StableHlo.binary main_arg2 main_v6 main_v7 (fun l r => Host.dotGeneral dot_S1024x1024_S1024x4x1024_S1024x1024x4_1_2_0_01_n_n none l r),
    StableHlo.unary main_v7 main_v8 (transpose S4x1024x1024 [2, 1, 0] · transposes_S1024x1024x4_S4x1024x1024_2_1_0),
    StableHlo.binary main_arg3 main_v6 main_v9 (fun l r => Host.dotGeneral dot_S1024x1024_S1024x4x1024_S1024x1024x4_1_2_0_01_n_n none l r),
    StableHlo.unary main_v9 main_v10 (transpose S4x1024x1024 [2, 1, 0] · transposes_S1024x1024x4_S4x1024x1024_2_1_0),
    StableHlo.binary main_arg4 main_v6 main_v11 (fun l r => Host.dotGeneral dot_S1024x1024_S1024x4x1024_S1024x1024x4_1_2_0_01_n_n none l r),
    StableHlo.unary main_v11 main_v12 (transpose S4x1024x1024 [2, 1, 0] · transposes_S1024x1024x4_S4x1024x1024_2_1_0) ]

-- The scaled scores, their softmax along the last axis, the values summed under those weights, transposed back.
abbrev opsAtt : List (HloOp τ sig (Elt F)) :=
  [ StableHlo.binary main_v8 main_v10 main_v13 (fun l r => Host.dotGeneral dot_S4x1024x1024_S4x1024x1024_S4x1024x1024_2_2_1_1_0_0 none l r),
    StableHlo.nullary main_cst (constant S_ .f32 0x44800000#32),
    StableHlo.unary main_cst main_v14 Host.sqrt,
    StableHlo.unary main_v14 main_v15 (broadcastInDim S4x1024x1024 ![] bcast_S_S4x1024x1024),
    StableHlo.binary main_v13 main_v15 main_v16 Host.divf,
    StableHlo.nullary main_cst_1 (constant S_ .f32 0xFF800000#32),
    StableHlo.binary main_v16 main_cst_1 main_v17 (fun x v => Host.reduce FloatOps.maximumf x v reducesTo_S4x1024x1024_S4x1024_d2 h_S_),
    StableHlo.nullary main_cst_2 (constant S_ .f32 0xFF800000#32),
    StableHlo.unary main_cst_2 main_v18 (broadcastInDim S4x1024 ![] bcast_S_S4x1024),
    StableHlo.binary main_v18 main_v17 main_v19 maximumf,
    StableHlo.unary main_v19 main_v20 (broadcastInDim S4x1024x1 ![0, 1] bcast_S4x1024_S4x1024x1_0_1),
    StableHlo.unary main_v20 main_v21 (broadcastInDim S4x1024x1024 ![0, 1, 2] bcast_S4x1024x1_S4x1024x1024_0_1_2),
    StableHlo.binary main_v16 main_v21 main_v22 subf,
    StableHlo.unary main_v22 main_v23 Host.exp,
    StableHlo.nullary main_cst_3 (constant S_ .f32 0x00000000#32),
    StableHlo.binary main_v23 main_cst_3 main_v24 (fun x v => Host.reduceAdd x v reducesTo_S4x1024x1024_S4x1024_d2 h_S_),
    StableHlo.unary main_v24 main_v25 (broadcastInDim S4x1024x1 ![0, 1] bcast_S4x1024_S4x1024x1_0_1),
    StableHlo.unary main_v25 main_v26 (broadcastInDim S4x1024x1024 ![0, 1, 2] bcast_S4x1024x1_S4x1024x1024_0_1_2),
    StableHlo.binary main_v23 main_v26 main_v27 Host.divf,
    StableHlo.binary main_v12 main_v27 main_v28 (fun l r => Host.dotGeneral dot_S4x1024x1024_S4x1024x1024_S4x1024x1024_1_2_2_1_0_0 none l r),
    StableHlo.unary main_v28 main_v29 (transpose S1024x4x1024 [2, 0, 1] · transposes_S4x1024x1024_S1024x4x1024_2_0_1) ]

-- The output projection with its bias, and the residual.
abbrev opsZo : List (HloOp τ sig (Elt F)) :=
  [ StableHlo.binary main_v29 main_arg5 main_v30 (fun l r => Host.dotGeneral dot_S1024x4x1024_S1024x1024_S1024x4x1024_2_1_01_0_n_n none l r),
    StableHlo.unary main_arg6 main_v31 (broadcastInDim S1x1x1024 ![2] bcast_S1024_S1x1x1024_2),
    StableHlo.unary main_v31 main_v32 (broadcastInDim S1024x4x1024 ![0, 1, 2] bcast_S1x1x1024_S1024x4x1024_0_1_2),
    StableHlo.binary main_v30 main_v32 main_v33 addf,
    StableHlo.binary main_v6 main_v33 main_v34 addf ]

-- The first normalisation along the feature axis: mean, variance, then scale and shift.
abbrev opsLn1 : List (HloOp τ sig (Elt F)) :=
  [ StableHlo.nullary main_cst_4 (constant S_ .f32 0x00000000#32),
    StableHlo.binary main_v34 main_cst_4 main_v35 (fun x v => Host.reduceAdd x v reducesTo_S1024x4x1024_S1024x4_d2 h_S_),
    StableHlo.unary main_v35 main_v36 (broadcastInDim S1024x4x1 ![0, 1] bcast_S1024x4_S1024x4x1_0_1),
    StableHlo.nullary main_cst_5 (constant S_ .f32 0x44800000#32),
    StableHlo.unary main_cst_5 main_v37 (broadcastInDim S1024x4x1 ![] bcast_S_S1024x4x1),
    StableHlo.binary main_v36 main_v37 main_v38 Host.divf,
    StableHlo.nullary main_c_6 (constantI S_ 32 0#32),
    StableHlo.TRef.nullary main_call0.cst (constant S_ .f32 0x00000000#32),
    StableHlo.TRef.binary (.of main_v34 : StableHlo.TRef sig ⟨S1024x4x1024, .f32⟩) main_call0.cst main_call0.v0 (fun x v => Host.reduceAdd x v reducesTo_S1024x4x1024_S1024x4_d2 h_S_),
    StableHlo.TRef.unary main_call0.v0 main_call0.v1 (broadcastInDim S1024x4x1 ![0, 1] bcast_S1024x4_S1024x4x1_0_1),
    StableHlo.TRef.nullary main_call0.cst_0 (constant S_ .f32 0x44800000#32),
    StableHlo.TRef.unary main_call0.cst_0 main_call0.v2 (broadcastInDim S1024x4x1 ![] bcast_S_S1024x4x1),
    StableHlo.TRef.binary main_call0.v1 main_call0.v2 main_call0.v3 Host.divf,
    StableHlo.TRef.unary main_call0.v3 main_call0.v4 (broadcastInDim S1024x4x1024 ![0, 1, 2] bcast_S1024x4x1_S1024x4x1024_0_1_2),
    StableHlo.TRef.binary (.of main_v34 : StableHlo.TRef sig ⟨S1024x4x1024, .f32⟩) main_call0.v4 main_call0.v5 subf,
    StableHlo.TRef.binary main_call0.v5 main_call0.v5 main_call0.v6 mulf,
    StableHlo.TRef.unary (.of main_c_6 : StableHlo.TRef sig ⟨S_, .i32⟩) main_call0.v7 (sitofp .f32),
    StableHlo.TRef.nullary main_call0.cst_1 (constant S_ .f32 0x44800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S1024x4x1024_S1024x4_d2 h_S_),
    StableHlo.TRef.unary main_call0.v9 main_call0.v10 (broadcastInDim S1024x4x1 ![0, 1] bcast_S1024x4_S1024x4x1_0_1),
    StableHlo.TRef.unary main_call0.v8 main_call0.v11 (broadcastInDim S1024x4x1 ![] bcast_S_S1024x4x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1024x4x1 ![] bcast_S_S1024x4x1),
    StableHlo.TRef.ternary main_call0.v13 main_call0.v12 main_call0.call0.v1 main_call0.call0.v2 (fun p a b => select (broadcastInDim S1024x4x1 ![] bcast_S_S1024x4x1 p) a b),
    StableHlo.unary main_v38 main_v40 (broadcastInDim S1024x4x1024 ![0, 1, 2] bcast_S1024x4x1_S1024x4x1024_0_1_2),
    StableHlo.binary main_v34 main_v40 main_v41 subf,
    StableHlo.nullary main_cst_7 (constant S_ .f32 0x3727C5AC#32),
    StableHlo.unary main_cst_7 main_v42 (broadcastInDim S1024x4x1 ![] bcast_S_S1024x4x1),
    StableHlo.binary main_v39 main_v42 main_v43 addf,
    StableHlo.unary main_v43 main_v44 Host.rsqrt,
    StableHlo.unary main_v44 main_v45 (broadcastInDim S1024x4x1024 ![0, 1, 2] bcast_S1024x4x1_S1024x4x1024_0_1_2),
    StableHlo.binary main_v41 main_v45 main_v46 mulf,
    StableHlo.unary main_arg11 main_v47 (broadcastInDim S1x1x1024 ![2] bcast_S1024_S1x1x1024_2),
    StableHlo.unary main_v47 main_v48 (broadcastInDim S1024x4x1024 ![0, 1, 2] bcast_S1x1x1024_S1024x4x1024_0_1_2),
    StableHlo.binary main_v46 main_v48 main_v49 mulf,
    StableHlo.unary main_arg12 main_v50 (broadcastInDim S1x1x1024 ![2] bcast_S1024_S1x1x1024_2),
    StableHlo.unary main_v50 main_v51 (broadcastInDim S1024x4x1024 ![0, 1, 2] bcast_S1x1x1024_S1024x4x1024_0_1_2),
    StableHlo.binary main_v49 main_v51 main_v52 addf ]

-- The feed-forward layer: affine, maximum with zero, affine, and the residual.
abbrev opsFfn : List (HloOp τ sig (Elt F)) :=
  [ StableHlo.binary main_v52 main_arg7 main_v53 (fun l r => Host.dotGeneral dot_S1024x4x1024_S4096x1024_S1024x4x4096_2_1_01_0_n_n none l r),
    StableHlo.unary main_arg8 main_v54 (broadcastInDim S1x1x4096 ![2] bcast_S4096_S1x1x4096_2),
    StableHlo.unary main_v54 main_v55 (broadcastInDim S1024x4x4096 ![0, 1, 2] bcast_S1x1x4096_S1024x4x4096_0_1_2),
    StableHlo.binary main_v53 main_v55 main_v56 addf,
    StableHlo.TRef.nullary main_call1.cst (constant S_ .f32 0x00000000#32),
    StableHlo.TRef.unary main_call1.cst main_call1.v0 (broadcastInDim S1024x4x4096 ![] bcast_S_S1024x4x4096),
    StableHlo.TRef.binary (.of main_v56 : StableHlo.TRef sig ⟨S1024x4x4096, .f32⟩) main_call1.v0 main_call1.v1 maximumf,
    StableHlo.binary main_v57 main_arg9 main_v58 (fun l r => Host.dotGeneral dot_S1024x4x4096_S1024x4096_S1024x4x1024_2_1_01_0_n_n none l r),
    StableHlo.unary main_arg10 main_v59 (broadcastInDim S1x1x1024 ![2] bcast_S1024_S1x1x1024_2),
    StableHlo.unary main_v59 main_v60 (broadcastInDim S1024x4x1024 ![0, 1, 2] bcast_S1x1x1024_S1024x4x1024_0_1_2),
    StableHlo.binary main_v58 main_v60 main_v61 addf,
    StableHlo.binary main_v52 main_v61 main_v62 addf ]

-- The second normalisation, over the feed-forward layer's result.
abbrev opsLn2 : List (HloOp τ sig (Elt F)) :=
  [ StableHlo.nullary main_cst_8 (constant S_ .f32 0x00000000#32),
    StableHlo.binary main_v62 main_cst_8 main_v63 (fun x v => Host.reduceAdd x v reducesTo_S1024x4x1024_S1024x4_d2 h_S_),
    StableHlo.unary main_v63 main_v64 (broadcastInDim S1024x4x1 ![0, 1] bcast_S1024x4_S1024x4x1_0_1),
    StableHlo.nullary main_cst_9 (constant S_ .f32 0x44800000#32),
    StableHlo.unary main_cst_9 main_v65 (broadcastInDim S1024x4x1 ![] bcast_S_S1024x4x1),
    StableHlo.binary main_v64 main_v65 main_v66 Host.divf,
    StableHlo.nullary main_c_10 (constantI S_ 32 0#32),
    StableHlo.TRef.nullary main_call2.cst (constant S_ .f32 0x00000000#32),
    StableHlo.TRef.binary (.of main_v62 : StableHlo.TRef sig ⟨S1024x4x1024, .f32⟩) main_call2.cst main_call2.v0 (fun x v => Host.reduceAdd x v reducesTo_S1024x4x1024_S1024x4_d2 h_S_),
    StableHlo.TRef.unary main_call2.v0 main_call2.v1 (broadcastInDim S1024x4x1 ![0, 1] bcast_S1024x4_S1024x4x1_0_1),
    StableHlo.TRef.nullary main_call2.cst_0 (constant S_ .f32 0x44800000#32),
    StableHlo.TRef.unary main_call2.cst_0 main_call2.v2 (broadcastInDim S1024x4x1 ![] bcast_S_S1024x4x1),
    StableHlo.TRef.binary main_call2.v1 main_call2.v2 main_call2.v3 Host.divf,
    StableHlo.TRef.unary main_call2.v3 main_call2.v4 (broadcastInDim S1024x4x1024 ![0, 1, 2] bcast_S1024x4x1_S1024x4x1024_0_1_2),
    StableHlo.TRef.binary (.of main_v62 : StableHlo.TRef sig ⟨S1024x4x1024, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x44800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S1024x4x1024_S1024x4_d2 h_S_),
    StableHlo.TRef.unary main_call2.v9 main_call2.v10 (broadcastInDim S1024x4x1 ![0, 1] bcast_S1024x4_S1024x4x1_0_1),
    StableHlo.TRef.unary main_call2.v8 main_call2.v11 (broadcastInDim S1024x4x1 ![] bcast_S_S1024x4x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1024x4x1 ![] bcast_S_S1024x4x1),
    StableHlo.TRef.ternary main_call2.v13 main_call2.v12 main_call2.call0.v1 main_call2.call0.v2 (fun p a b => select (broadcastInDim S1024x4x1 ![] bcast_S_S1024x4x1 p) a b),
    StableHlo.unary main_v66 main_v68 (broadcastInDim S1024x4x1024 ![0, 1, 2] bcast_S1024x4x1_S1024x4x1024_0_1_2),
    StableHlo.binary main_v62 main_v68 main_v69 subf,
    StableHlo.nullary main_cst_11 (constant S_ .f32 0x3727C5AC#32),
    StableHlo.unary main_cst_11 main_v70 (broadcastInDim S1024x4x1 ![] bcast_S_S1024x4x1),
    StableHlo.binary main_v67 main_v70 main_v71 addf,
    StableHlo.unary main_v71 main_v72 Host.rsqrt,
    StableHlo.unary main_v72 main_v73 (broadcastInDim S1024x4x1024 ![0, 1, 2] bcast_S1024x4x1_S1024x4x1024_0_1_2),
    StableHlo.binary main_v69 main_v73 main_v74 mulf,
    StableHlo.unary main_arg13 main_v75 (broadcastInDim S1x1x1024 ![2] bcast_S1024_S1x1x1024_2),
    StableHlo.unary main_v75 main_v76 (broadcastInDim S1024x4x1024 ![0, 1, 2] bcast_S1x1x1024_S1024x4x1024_0_1_2),
    StableHlo.binary main_v74 main_v76 main_v77 mulf,
    StableHlo.unary main_arg14 main_v78 (broadcastInDim S1x1x1024 ![2] bcast_S1024_S1x1x1024_2),
    StableHlo.unary main_v78 main_v79 (broadcastInDim S1024x4x1024 ![0, 1, 2] bcast_S1x1x1024_S1024x4x1024_0_1_2),
    StableHlo.binary main_v77 main_v79 main_v80 addf ]

-- The decoder: the rows flattened, their product with the transposed table, the bias added.
abbrev opsDec : List (HloOp τ sig (Elt F)) :=
  [ StableHlo.reshape main_v80 main_v81 rfl shapeCasts_S1024x4x1024_S4096x1024,
    StableHlo.unary main_arg15 main_v82 (transpose S1024x32000 [1, 0] · transposes_S32000x1024_S1024x32000_1_0),
    StableHlo.binary main_v81 main_v82 main_v83 (fun l r => Host.dotGeneral dot_S4096x1024_S1024x32000_S4096x32000_1_0_0_1_n_n none l r),
    StableHlo.unary main_arg16 main_v84 (broadcastInDim S1x32000 ![1] bcast_S32000_S1x32000_1),
    StableHlo.unary main_v84 main_v85 (broadcastInDim S4096x32000 ![0, 1] bcast_S1x32000_S4096x32000_0_1),
    StableHlo.binary main_v83 main_v85 main_v86 addf ]

-- @main's operations in order: the eight stretches one after the other.
abbrev ops : List (HloOp τ sig (Elt F)) :=
  opsEmb ++ opsQKV ++ opsAtt ++ opsZo ++ opsLn1 ++ opsFfn ++ opsLn2 ++ opsDec

end Cert.ReferenceIdeal.HandRun

end
-- ==== Proof.Ref.Run.lean ====
import proofs.«424417_j2491081031820_3_alg».proof.Proof.Ref.Ops

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 2048 in
-- Both sides are one chain of host steps once sequencing is re-associated.
theorem main_eq (c : Dev nD) : main (F := F) c = seq ops := by
  simp only [main, main_part0, main_part1, fn_var.body, fn_where.body, fn_relu.body, ops, seq_append, seq, bind_assoc,
    pure_bind]
  rfl

theorem ops_sub : (ops : List (HloOp τ sig (Elt F))).Forall fun op => op.bufs ⊆ tcRefs τ sig := by
  simp only [ops, List.forall_append, List.Forall, nullary_bufs_sub, unary_bufs_sub, binary_bufs_sub, ternary_bufs_sub,
    reshape_bufs_sub, and_self]

theorem ops_fresh : ∀ op ∈ (ops : List (HloOp τ sig (Elt F))), op.fresh = ∅ :=
  List.forall_iff_forall_mem.mp (by simp only [ops, List.forall_append, List.Forall]; and_intros <;> rfl)

-- Every weakly fair execution of @main terminates with each buffer at the line's fold over the launch contents.
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  run_seq (by decide) (by decide) defs main (fun _ => ops) main_eq (fun _ => ops_sub) m ρ fun _ => ops_fresh

abbrev opsQKV_W : List (Ref sig .tc) :=
  [main_v7, main_v8, main_v9, main_v10, main_v11, main_v12]
abbrev opsAtt_W : List (Ref sig .tc) :=
  [main_v13, main_cst, main_v14, main_v15, main_v16, main_cst_1, main_v17, main_cst_2, main_v18, main_v19, main_v20,
   main_v21, main_v22, main_v23, main_cst_3, main_v24, main_v25, main_v26, main_v27, main_v28, main_v29]
-- The references the line writes, in order: one per operation, none of them an argument.
abbrev ops_W : List (Ref sig .tc) :=
  [main_c, main_v0, main_v1, main_c_0, main_v2, main_v3, main_v4, main_v5, main_v6] ++ opsQKV_W ++ opsAtt_W ++
  [main_v30, main_v31, main_v32, main_v33, main_v34, main_cst_4, main_v35, main_v36, main_cst_5, main_v37,
   main_v38, main_c_6, main_call0_cst, main_call0_v0, main_call0_v1, main_call0_cst_0, main_call0_v2,
   main_call0_v3, main_call0_v4, main_call0_v5, main_call0_v6, main_call0_v7, main_call0_cst_1, main_call0_v8,
   main_call0_cst_2, main_call0_v9, main_call0_v10, main_call0_v11, main_call0_v12, main_call0_cst_3,
   main_call0_v13, main_call0_cst_4, main_call0_call0_v0, main_call0_call0_v1, main_v39, main_v40, main_v41,
   main_cst_7, main_v42, main_v43, main_v44, main_v45, main_v46, main_v47, main_v48, main_v49, main_v50, main_v51,
   main_v52, main_v53, main_v54, main_v55, main_v56, main_call1_cst, main_call1_v0, main_v57, main_v58, main_v59,
   main_v60, main_v61, main_v62, main_cst_8, main_v63, main_v64, main_cst_9, main_v65, main_v66, main_c_10,
   main_call2_cst, main_call2_v0, main_call2_v1, main_call2_cst_0, main_call2_v2, main_call2_v3, main_call2_v4,
   main_call2_v5, main_call2_v6, main_call2_v7, main_call2_cst_1, main_call2_v8, main_call2_cst_2, main_call2_v9,
   main_call2_v10, main_call2_v11, main_call2_v12, main_call2_cst_3, main_call2_v13, main_call2_cst_4,
   main_call2_call0_v0, main_call2_call0_v1, main_v67, main_v68, main_v69, main_cst_11, main_v70, main_v71,
   main_v72, main_v73, main_v74, main_v75, main_v76, main_v77, main_v78, main_v79, main_v80, main_v81, main_v82,
   main_v83, main_v84, main_v85, main_v86]

theorem ops_writes : (ops : List (HloOp τ sig (Elt F))).Forall fun op =>
    op.writes ⊆ (ops_W.map (Proc.devRef (τ := τ) .tc)).toFinset := by
  simp only [ops, List.forall_append, List.Forall, nullary_writes, unary_writes, binary_writes, ternary_writes,
    reshape_writes, Finset.singleton_subset_iff, List.mem_toFinset]
  and_intros <;> exact List.mem_map_of_mem (by decide)

-- What holds of every operation of the line holds of every operation of a part of it.
theorem writes_of_sub {l : List (HloOp τ sig (Elt F))}
    (h : l ⊆ ops := by intro _ h; simp only [ops, List.mem_append, h, true_or, or_true]) : l.Forall fun op =>
    op.writes ⊆ (ops_W.map (Proc.devRef (τ := τ) .tc)).toFinset :=
  List.forall_iff_forall_mem.2 fun _ ho => List.forall_iff_forall_mem.1 ops_writes _ (h ho)

theorem opsEmb_writes : (opsEmb : List (HloOp τ sig (Elt F))).Forall fun op =>
    op.writes ⊆ (ops_W.map (Proc.devRef (τ := τ) .tc)).toFinset :=
  writes_of_sub
theorem opsQKV_writes : (opsQKV : List (HloOp τ sig (Elt F))).Forall fun op =>
    op.writes ⊆ (ops_W.map (Proc.devRef (τ := τ) .tc)).toFinset :=
  writes_of_sub
theorem opsAtt_writes : (opsAtt : List (HloOp τ sig (Elt F))).Forall fun op =>
    op.writes ⊆ (ops_W.map (Proc.devRef (τ := τ) .tc)).toFinset :=
  writes_of_sub
theorem opsZo_writes : (opsZo : List (HloOp τ sig (Elt F))).Forall fun op =>
    op.writes ⊆ (ops_W.map (Proc.devRef (τ := τ) .tc)).toFinset :=
  writes_of_sub
theorem opsLn1_writes : (opsLn1 : List (HloOp τ sig (Elt F))).Forall fun op =>
    op.writes ⊆ (ops_W.map (Proc.devRef (τ := τ) .tc)).toFinset :=
  writes_of_sub
theorem opsFfn_writes : (opsFfn : List (HloOp τ sig (Elt F))).Forall fun op =>
    op.writes ⊆ (ops_W.map (Proc.devRef (τ := τ) .tc)).toFinset :=
  writes_of_sub
theorem opsLn2_writes : (opsLn2 : List (HloOp τ sig (Elt F))).Forall fun op =>
    op.writes ⊆ (ops_W.map (Proc.devRef (τ := τ) .tc)).toFinset :=
  writes_of_sub

-- A reference the line does not write keeps its contents through it.
theorem kept (V : Valuation τ sig (Elt F)) (r : Ref sig .tc) (h : r ∉ ops_W) :
    StableHlo.after ops V (Proc.devRef .tc r) = V (Proc.devRef .tc r) :=
  after_of_writes_sub ops V ops_writes h

-- @main runs, and its seventeen argument arrays end as launched.
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => by and_intros <;> exact (h c _).trans (kept _ _ (by decide))) (run_all m ρ)

end Cert.ReferenceIdeal.HandRun

end
-- ==== Proof.KI.Reg0.lean ====
import proofs.«424417_j2491081031820_3_alg».proof.Proof.Gen.KernelIdeal.Launch
import proofs.«424417_j2491081031820_3_alg».proof.Proof.Gen.KernelIdeal.Skeleton
import proofs.«424417_j2491081031820_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

def out0_2 (x0 : Vec F S512x1024 .f32) (x1 : Vec F S1024x3072 .bf16) : Vec F S512x3072 .bf16 :=
  View.canon [⟨r0_2, k0_pay1 (View.ld x0 r0_0) (View.ld x1 r0_1)⟩]

/-- The body's triple: the input buffers are left as read, the output buffer holds the payload of the inputs. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S512x3072.size rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_2 (c : Dev nD) (t : Fin cfg0.N) : (dat0 V c).after 2 t = out0_2 (iblk0 V c 0 t) (iblk0 V c 1 t) := by dsimp only [dat0]

theorem before0 (c : Dev nD) (t : Fin cfg0.N) :
    (∀ d, (dat0 V c).before 0 t d = iblk0 V c 0 t) ∧ ∀ d, (dat0 V c).before 1 t d = iblk0 V c 1 t := by
  refine ⟨fun d => ?_, fun d => ?_⟩ <;>
    exact ((dat0 V c).before_in_eq_fetched _ rfl (fun _ => rfl) (fun _ _ _ => rfl) (fun t => by dsimp only [dat0]; rfl) t d).trans rfl

/-- At every point the input buffers hold their blocks, so the body's triple applies; the rest passes through. -/
theorem body_obligation0 (c : Dev nD) : BodyObligation (dat0 (F := F) V c) (defs₀ (F := F)) Variants.none () Set.univ := fun t => by
  rw [bigSep_W0, bigSep_W0]
  refine (show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.castSucc ∗ (dat0 V c).owesAt () t.castSucc
        ∗ owns (c : Thread nD τ) (st0_0 t) fullShare ((dat0 V c).after 0 t) ∗ owns (c : Thread nD τ) (st0_1 t) fullShare ((dat0 V c).after 1 t)
        ∗ owns (c : Thread nD τ) (st0_2 t) fullShare ((dat0 V c).after 2 t))) from ?_)
  unfold bodyAt0
  simp only [(before0 V c t).1, (before0 V c t).2]
  dsimp only [dat0]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  iframe

end Cert.KernelIdeal.Hand

end
-- ==== Proof.KI.Reg1.lean ====
import proofs.«424417_j2491081031820_3_alg».proof.Proof.Gen.KernelIdeal.Launch
import proofs.«424417_j2491081031820_3_alg».proof.Proof.Gen.KernelIdeal.Skeleton
import proofs.«424417_j2491081031820_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x1024x1024 := Rect.unit (s := S1x1024x1024) ![0, 0, 0] S1x1024x1024.size inb_S1x1024x1024_S1x1024x1024_0_0_0

def out1_3 (x0 : Vec F S1x1024x1024 .bf16) (x1 : Vec F S1x1024x1024 .bf16) (x2 : Vec F S1x1024x1024 .bf16) : Vec F S1x1024x1024 .f32 :=
  View.canon [⟨r1_0, k1_pay1 (View.ld x0 r1_0) (View.ld x1 r1_0) (View.ld x2 r1_0)⟩]

/-- The body's triple: the input buffers are left as read, the output buffer holds the payload of the inputs. -/
theorem sound_kernel1 (c : Dev nD) (E : Set ℕ) (i : grid1.Coords) (arg1 : Memref sig .tc .vmem S1x1024x1024 .bf16) (harg1 : arg1.IsWhole) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .f32) (harg4 : arg4.IsWhole)
    (x0 : Vec F S1x1024x1024 .bf16) (x1 : Vec F S1x1024x1024 .bf16) (x2 : Vec F S1x1024x1024 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1x1024x1024.size rfl)

/-- Three windows share one array, so its full share is split in three. -/
def q1 : Fin cfg1.W → PosShare TreeShare := fun
  | ⟨0, _⟩ => fullShare.left
  | ⟨1, _⟩ => fullShare.right.left
  | ⟨2, _⟩ => fullShare.right.right
  | _ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem after1_3 (c : Dev nD) (t : Fin cfg1.N) :
    (dat1 V c).after 3 t = out1_3 (iblk1 V c 0 t) (iblk1 V c 1 t) (iblk1 V c 2 t) := by dsimp only [dat1]

theorem before1 (c : Dev nD) (t : Fin cfg1.N) : (∀ d, (dat1 V c).before 0 t d = iblk1 V c 0 t)
    ∧ (∀ d, (dat1 V c).before 1 t d = iblk1 V c 1 t) ∧ ∀ d, (dat1 V c).before 2 t d = iblk1 V c 2 t := by
  refine ⟨fun d => ?_, fun d => ?_, fun d => ?_⟩ <;>
    exact ((dat1 V c).before_in_eq_fetched _ rfl (fun _ => rfl) (fun _ _ _ => rfl) (fun t => by dsimp only [dat1]; rfl) t d).trans rfl

/-- At every point the input buffers hold their blocks, so the body's triple applies; the rest passes through. -/
theorem body_obligation1 (c : Dev nD) : BodyObligation (dat1 (F := F) V c) (defs₀ (F := F)) Variants.none () Set.univ := fun t => by
  rw [bigSep_W1, bigSep_W1]
  refine (show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.castSucc ∗ (dat1 V c).owesAt () t.castSucc
        ∗ owns (c : Thread nD τ) (st1_0 t) fullShare ((dat1 V c).after 0 t) ∗ owns (c : Thread nD τ) (st1_1 t) fullShare ((dat1 V c).after 1 t)
        ∗ owns (c : Thread nD τ) (st1_2 t) fullShare ((dat1 V c).after 2 t) ∗ owns (c : Thread nD τ) (st1_3 t) fullShare ((dat1 V c).after 3 t))) from ?_)
  unfold bodyAt1
  simp only [(before1 V c t).1, (before1 V c t).2.1, (before1 V c t).2.2]
  dsimp only [dat1]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  iframe

end Cert.KernelIdeal.Hand

end
-- ==== Proof.KI.Reg2.lean ====
import proofs.«424417_j2491081031820_3_alg».proof.Proof.Gen.KernelIdeal.Launch
import proofs.«424417_j2491081031820_3_alg».proof.Proof.Gen.KernelIdeal.Skeleton
import proofs.«424417_j2491081031820_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S256x1024 := Rect.unit (s := S256x1024) ![0, 0] S256x1024.size inb_S256x1024_S256x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S1024x4096 := Rect.unit (s := S1024x4096) ![0, 0] S1024x4096.size inb_S1024x4096_S1024x4096_0_0
abbrev r2_4 : Rect S1x4096 := Rect.unit (s := S1x4096) ![0, 0] S1x4096.size inb_S1x4096_S1x4096_0_0
abbrev r2_5 : Rect S4096x1024 := Rect.unit (s := S4096x1024) ![0, 0] S4096x1024.size inb_S4096x1024_S4096x1024_0_0

def out2_12 (x0 x1 : Vec F S256x1024 .f32) (x2 : Vec F S1024x1024 .bf16) (x3 x4 x5 : Vec F S1x1024 .f32) (x6 : Vec F S1024x4096 .bf16) (x7 : Vec F S1x4096 .f32) (x8 : Vec F S4096x1024 .bf16) (x9 x10 x11 : Vec F S1x1024 .f32) : Vec F S256x1024 .bf16 :=
  View.canon [⟨r2_0, k2_pay3 (k2_pay1 (View.ld x0 r2_0) (View.ld x2 r2_1) (View.ld x3 r2_2) (View.ld x1 r2_0) (View.ld x4 r2_2) (View.ld x5 r2_2)) (k2_pay2 (View.ld x0 r2_0) (View.ld x2 r2_1) (View.ld x3 r2_2) (View.ld x1 r2_0) (View.ld x4 r2_2) (View.ld x5 r2_2)) (View.ld x6 r2_3) (View.ld x7 r2_4) (View.ld x8 r2_5) (View.ld x9 r2_2) (View.ld x10 r2_2) (View.ld x11 r2_2)⟩]

set_option maxHeartbeats 1000000 in
theorem sound_kernel2 (c : Dev nD) (E : Set ℕ) (i : grid2.Coords)
    (arg1 arg2 : Memref sig .tc .vmem S256x1024 .f32) (harg1 : arg1.IsWhole) (harg2 : arg2.IsWhole)
    (arg3 : Memref sig .tc .vmem S1024x1024 .bf16) (harg3 : arg3.IsWhole)
    (arg4 arg5 arg6 arg10 arg11 arg12 : Memref sig .tc .vmem S1x1024 .f32) (harg4 : arg4.IsWhole) (harg5 : arg5.IsWhole)
    (harg6 : arg6.IsWhole) (harg10 : arg10.IsWhole) (harg11 : arg11.IsWhole) (harg12 : arg12.IsWhole)
    (arg7 : Memref sig .tc .vmem S1024x4096 .bf16) (harg7 : arg7.IsWhole) (arg8 : Memref sig .tc .vmem S1x4096 .f32) (harg8 : arg8.IsWhole)
    (arg9 : Memref sig .tc .vmem S4096x1024 .bf16) (harg9 : arg9.IsWhole) (arg13 : Memref sig .tc .vmem S256x1024 .bf16) (harg13 : arg13.IsWhole)
    (x0 x1 : Vec F S256x1024 .f32) (x2 : Vec F S1024x1024 .bf16) (x3 x4 x5 x9 x10 x11 : Vec F S1x1024 .f32) (x6 : Vec F S1024x4096 .bf16)
    (x7 : Vec F S1x4096 .f32) (x8 : Vec F S4096x1024 .bf16) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ (∃ d, owns c arg13 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11
          ∗ owns c arg13 fullShare (out2_12 x0 x1 x2 x3 x4 x5 x6 x7 x8 x9 x10 x11)) -∗ K ⟨⟩))
      ⊢ wp frame (wpE (defs₀ (F := F)) Variants.none c none) E (cc2__post_kernel i arg1 harg1 arg2 harg2 arg3 harg3 arg4 harg4 arg5 harg5 arg6 harg6 arg7 harg7 arg8 harg8 arg9 harg9 arg10 harg10 arg11 harg11 arg12 harg12 arg13 harg13) K := by
  simp only [cc2__post_kernel_eq_skeleton]; unfold cc2__post_kernel_skel
  simp only [k2_part1_eq_skeleton]; unfold k2_part1_skel
  simp only [k2_part2_eq_skeleton]; unfold k2_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  iexists _; isplitr
  swap; · iexact H12
  ipureintro
  exact View.read_writes_eq_canon _ _ _ (View.cover_of_tiled _ S256x1024.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
  Φ _ := Pipeline.ΦA spec2 c
  q _ := fullShare
  owed _ := 0

theorem after2_12 (c : Dev nD) (t : Fin cfg2.N) : (dat2 V c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) := by dsimp only [dat2]

theorem before2 (c : Dev nD) : ∀ w : Fin cfg2.W, w ≠ 12 → ∀ t d, (dat2 V c).before w t d = (dat2 V c).after w t
  | ⟨12, _⟩, h => absurd rfl h
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ | ⟨11, _⟩, _ => fun t d =>
    ((dat2 V c).before_in_eq_fetched _ rfl (fun _ => rfl) (fun _ _ _ => rfl) (fun _ => by dsimp only [dat2, Dat.blockOf, iblk2]) t d).trans
      (by unfold Dat.fetched Dat.blockOf; dsimp only [dat2, iblk2]; try rfl)

theorem sound_body2 (c : Dev nD) (t : Fin cfg2.N) :
    iprop((dat2 V c).Φ t.castSucc ∗ (dat2 V c).owesAt () t.castSucc
        ∗ bigSep Finset.univ fun w => iprop(∃ d, owns c ((cfg2.win w).stage (cfg2.slots t w)) fullShare ((dat2 V c).before w t d)))
      ⊢ wp frame (wpE (defs₀ (F := F)) Variants.none c none) Set.univ (bodyAt2 t) fun _ =>
        iprop((dat2 V c).Φ t.succ ∗ (dat2 V c).owesAt () t.succ
          ∗ bigSep Finset.univ fun w => owns c ((cfg2.win w).stage (cfg2.slots t w)) fullShare ((dat2 V c).after w t)) := by
  rw [bigSep_W2, bigSep_W2, show (dat2 V c).Φ t.succ = (dat2 V c).Φ t.castSucc from rfl,
    show (dat2 V c).owesAt () t.succ = (dat2 V c).owesAt () t.castSucc from rfl]
  simp +decide only [before2 V c]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel2 c Set.univ (grid2.coords t) _ _ _ _ _ _ _ _ _ _ _ _ _ _ _ _ _ _ _ _ _ _ _ _ _ _ ((dat2 V c).after 0 t) ((dat2 V c).after 1 t) ((dat2 V c).after 2 t) ((dat2 V c).after 3 t) ((dat2 V c).after 4 t) ((dat2 V c).after 5 t) ((dat2 V c).after 9 t) ((dat2 V c).after 10 t) ((dat2 V c).after 11 t) ((dat2 V c).after 6 t) ((dat2 V c).after 7 t) ((dat2 V c).after 8 t) _)
  iframe H0 H1 H2 H3 H4 H5 H6 H7 H8 H9 H10 H11
  isplitl [H12]; · iexists _; iexact H12
  iintro ⟨H0, H1, H2, H3, H4, H5, H6, H7, H8, H9, H10, H11, H12⟩
  iframe HΦ Ho H0 H1 H2 H3 H4 H5 H6 H7 H8 H9 H10 H11
  istop; dsimp only [dat2]; exact .rfl

theorem body_obligation2 (c : Dev nD) : BodyObligation (dat2 (F := F) V c) (defs₀ (F := F)) Variants.none () Set.univ :=
  sound_body2 V c

end Cert.KernelIdeal.Hand

end
-- ==== Proof.KI.Reg3.lean ====
import proofs.«424417_j2491081031820_3_alg».proof.Proof.Gen.KernelIdeal.Launch
import proofs.«424417_j2491081031820_3_alg».proof.Proof.Gen.KernelIdeal.Skeleton
import proofs.«424417_j2491081031820_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S512x1024 := Rect.unit (s := S512x1024) ![0, 0] S512x1024.size inb_S512x1024_S512x1024_0_0
abbrev r3_1 : Rect S1280x1024 := Rect.unit (s := S1280x1024) ![0, 0] S1280x1024.size inb_S1280x1024_S1280x1024_0_0
abbrev r3_2 : Rect S1x1280 := Rect.unit (s := S1x1280) ![0, 0] S1x1280.size inb_S1x1280_S1x1280_0_0
abbrev r3_3 : Rect S512x1280 := Rect.unit (s := S512x1280) ![0, 0] S512x1280.size inb_S512x1280_S512x1280_0_0

def out3_3 (x0 : Vec F S512x1024 .bf16) (x1 : Vec F S1280x1024 .f32) (x2 : Vec F S1x1280 .f32) : Vec F S512x1280 .f32 :=
  View.canon [⟨r3_3, k3_pay1 (View.ld x0 r3_0) (View.ld x1 r3_1) (View.ld x2 r3_2)⟩]

/-- The body's triple: the input buffers are left as read, the output buffer holds the payload of the inputs. -/
theorem sound_kernel3 (c : Dev nD) (E : Set ℕ) (i : grid3.Coords)
    (arg2 : Memref sig .tc .vmem S512x1024 .bf16) (harg2 : arg2.IsWhole) (arg3 : Memref sig .tc .vmem S1280x1024 .f32) (harg3 : arg3.IsWhole)
    (arg4 : Memref sig .tc .vmem S1x1280 .f32) (harg4 : arg4.IsWhole) (arg5 : Memref sig .tc .vmem S512x1280 .f32) (harg5 : arg5.IsWhole)
    (x0 : Vec F S512x1024 .bf16) (x1 : Vec F S1280x1024 .f32) (x2 : Vec F S1x1280 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3_3 x0 x1 x2)) -∗ K ⟨⟩))
      ⊢ wp frame (wpE (defs₀ (F := F)) Variants.none c none) E (cc3__decoder_kernel i arg2 harg2 arg3 harg3 arg4 harg4 arg5 harg5) K := by
  simp only [cc3__decoder_kernel_eq_skeleton]; unfold cc3__decoder_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S512x1280.size rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem after3_3 (c : Dev nD) (t : Fin cfg3.N) :
    (dat3 V c).after 3 t = out3_3 (iblk3 V c 0 t) (iblk3 V c 1 t) (iblk3 V c 2 t) := by dsimp only [dat3]

theorem before3 (c : Dev nD) (t : Fin cfg3.N) : (∀ d, (dat3 V c).before 0 t d = iblk3 V c 0 t)
    ∧ (∀ d, (dat3 V c).before 1 t d = iblk3 V c 1 t) ∧ ∀ d, (dat3 V c).before 2 t d = iblk3 V c 2 t := by
  refine ⟨fun d => ?_, fun d => ?_, fun d => ?_⟩ <;>
    exact ((dat3 V c).before_in_eq_fetched _ rfl (fun _ => rfl) (fun _ _ _ => rfl) (fun t => by dsimp only [dat3]; rfl) t d).trans rfl

/-- At every point the input buffers hold their blocks, so the body's triple applies; the rest passes through. -/
theorem body_obligation3 (c : Dev nD) : BodyObligation (dat3 (F := F) V c) (defs₀ (F := F)) Variants.none () Set.univ := fun t => by
  rw [bigSep_W3, bigSep_W3]
  refine (show iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d)))
    ⊢ wp frame (wpE (defs₀ (F := F)) Variants.none c none) Set.univ (bodyAt3 t) (fun _ =>
      iprop((dat3 V c).Φ t.castSucc ∗ (dat3 V c).owesAt () t.castSucc
        ∗ owns (c : Thread nD τ) (st3_0 t) fullShare ((dat3 V c).after 0 t) ∗ owns (c : Thread nD τ) (st3_1 t) fullShare ((dat3 V c).after 1 t)
        ∗ owns (c : Thread nD τ) (st3_2 t) fullShare ((dat3 V c).after 2 t) ∗ owns (c : Thread nD τ) (st3_3 t) fullShare ((dat3 V c).after 3 t))) from ?_)
  unfold bodyAt3
  simp only [(before3 V c t).1, (before3 V c t).2.1, (before3 V c t).2.2]
  dsimp only [dat3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  iframe

end Cert.KernelIdeal.Hand

end
-- ==== Proof.KI.RunBase.lean ====
import proofs.«424417_j2491081031820_3_alg».proof.Proof.KI.Reg0
import proofs.«424417_j2491081031820_3_alg».proof.Proof.KI.Reg1
import proofs.«424417_j2491081031820_3_alg».proof.Proof.KI.Reg2
import proofs.«424417_j2491081031820_3_alg».proof.Proof.KI.Reg3
import proofs.«424417_j2491081031820_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Gen.Outs (F := F))

abbrev E0 : (c : Dev nD) → (b : Ref sig .tc) → Buf (Elt F) ((c : Thread nD τ).loc b) := fun c b => Gen.V2 m c b
abbrev E1 : (c : Dev nD) → (b : Ref sig .tc) → Buf (Elt F) ((c : Thread nD τ).loc b) := fun c b => Gen.V4 m outs c b
abbrev E2 : (c : Dev nD) → (b : Ref sig .tc) → Buf (Elt F) ((c : Thread nD τ).loc b) := fun c b => Gen.V6 m outs c b
abbrev E3 : (c : Dev nD) → (b : Ref sig .tc) → Buf (Elt F) ((c : Thread nD τ).loc b) := fun c b => Gen.V8 m outs c b

/-- Each unknown of the chain is what its call leaves in its output array. -/
structure OutsOK : Prop where
  h3 : ∀ c : Dev nD, outs 3 main_v5 c = (dat0 (E0 m) c).arrAt 2 cfg0.N
  h5 : ∀ c : Dev nD, outs 5 main_v8 c = (dat1 (E1 m outs) c).arrAt 3 cfg1.N
  h7 : ∀ c : Dev nD, outs 7 main_v24 c = (dat2 (E2 m outs) c).arrAt 12 cfg2.N
  h9 : ∀ c : Dev nD, outs 9 main_v26 c = (dat3 (E3 m outs) c).arrAt 3 cfg3.N

def pdats : (p : Fin 4) → (c : Dev nD) → Dat τ (Elt F) Unit ℕ (UR sig nD τ) ℕ (cfgs p) c
  | ⟨0, _⟩ => fun c => dat0 (E0 m) c
  | ⟨1, _⟩ => fun c => dat1 (E1 m outs) c
  | ⟨2, _⟩ => fun c => dat2 (E2 m outs) c
  | ⟨3, _⟩ => fun c => dat3 (E3 m outs) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem V3_out (c : Dev nD) : Gen.V3 m outs c main_v5 = outs 3 main_v5 c := Function.update_self _ _ _
theorem V5_out (c : Dev nD) : Gen.V5 m outs c main_v8 = outs 5 main_v8 c := Function.update_self _ _ _
theorem V7_out (c : Dev nD) : Gen.V7 m outs c main_v24 = outs 7 main_v24 c := Function.update_self _ _ _
theorem V9_out (c : Dev nD) : Gen.V9 m outs c main_v26 = outs 9 main_v26 c := Function.update_self _ _ _

theorem pdats_at : ∀ (p : Fin 4) (c : Dev nD) i, (pdats m outs p c).Φ i = Pipeline.ΦA (cfgs p).spec c
      ∧ (pdats m outs p c).owed i = 0 ∧ (pdats m outs p c).recorded i = Set.univ
  | ⟨0, _⟩, _, _ | ⟨1, _⟩, _, _ | ⟨2, _⟩, _, _ | ⟨3, _⟩, _, _ => ⟨rfl, rfl, rfl⟩

set_option backward.isDefEq.respectTransparency.types false in
/-- A call as an item of the run, from its body obligation and the exchange of its arrays with the held buffers at entry (`V`) and exit (`V'`). -/
def regOf (p : Fin 4) (win : Pipeline.WinFacts₀ (pcfgs (F := F) p).spec) (bp : ∀ w, 0 < ((pcfgs (F := F) p).spec w).block.numel)
    (sw : ∀ w s, (((pcfgs (F := F) p).spec w).stage s).IsWhole)
    (hb : ∀ c, BodyObligation (pdats m outs p c) (defs₀ (F := F)) 𝒱₀ () Set.univ)
    (V V' : (c : Dev nD) → Valuation τ sig (Elt F))
    (hen : ∀ c : Dev nD, (StableHlo.held (c : Thread nD τ) (Pipeline.ucRefs τ sig) (V c) : sProp 𝕄)
      ⊢ iprop((pdats m outs p c).arrays ((pdats m outs p c).arrAt · 0)
          ∗ Pipeline.unscopedRest (Ix := Unit) (Name := ℕ) (U := UR sig nD τ) (Lvl := ℕ) (cfgs p).spec c fun b => V c b))
    (hex : ∀ c : Dev nD, iprop((pdats m outs p c).arrays ((pdats m outs p c).arrAt · (cfgs p).N)
          ∗ Pipeline.unscopedRest (Ix := Unit) (Name := ℕ) (U := UR sig nD τ) (Lvl := ℕ) (cfgs p).spec c fun b => V c b)
      ⊢ (StableHlo.held (c : Thread nD τ) (Pipeline.ucRefs τ sig) (V' c) : sProp 𝕄)) :
    RegionSeg (pcfgs (F := F)) Gen.adm (pdats m outs) () defs₀ 𝒱₀ L lv p where
  win := win
  block_pos := bp
  stage_whole := sw
  K := PEmpty
  osem k := k.elim
  ho := Pipeline.OwnSemFacts.none _
  hbody c := (hb c).loose
  hwaits := Pipeline.hwaits_of_owed_zero _ _ _ _ L lv p fun c t => (pdats_at m outs p c t).2.1
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    iintro ⟨⟨Hub, Hp, HO⟩, -, -⟩
    ihave H := hen c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(pdats_at m outs p c 0).2.1]
      icases HO with ⟨%W, HO⟩; iexists W; isplitr; · ipureintro; exact fun _ _ => Or.inl (by rw [(pdats_at m outs p c 0).2.2]; trivial)
      iexact HO
    isplitl [Hp]; · iexact Hp
    iexact Hrest
  hin c := by
    rw [(pdats_at m outs p c 0).1]; unfold Pipeline.ΦA
    iintro ⟨Hp, -, Hr⟩
    isplitl [Hr]; · iexact Hr
    iexact Hp
  hout c := by
    rw [Pipeline.ownSems0_none, (pdats_at m outs p c _).1]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply hex c; isplitl [Ha] <;> iassumption
    isplitl [HY]; · iexact HY
    unfold Pipeline.Dat.owesAt Pipeline.owesWithin
    rw [(pdats_at m outs p c _).2.1]
    icases HO with ⟨%W, -, HO⟩; iexists W; iexact HO

end Cert.KernelIdeal.Hand

end
-- ==== Proof.KI.Outs.lean ====
import proofs.«424417_j2491081031820_3_alg».proof.Proof.KI.RunBase

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

def o3 (c : Dev nD) : Buf (Elt F) ((c : Thread nD τ).loc main_v5) := (dat0 (E0 m) c).arrAt 2 cfg0.N
def W4 (c : Dev nD) : Valuation τ sig (Elt F) := StableHlo.after hostOps1 (Function.update (Gen.V2 m c) main_v5 (o3 m c))
def o5 (c : Dev nD) : Buf (Elt F) ((c : Thread nD τ).loc main_v8) := (dat1 (fun c b => W4 m c b) c).arrAt 3 cfg1.N
def W6 (c : Dev nD) : Valuation τ sig (Elt F) := StableHlo.after hostOps2 (Function.update (W4 m c) main_v8 (o5 m c))
def o7 (c : Dev nD) : Buf (Elt F) ((c : Thread nD τ).loc main_v24) := (dat2 (fun c b => W6 m c b) c).arrAt 12 cfg2.N
def W8 (c : Dev nD) : Valuation τ sig (Elt F) := StableHlo.after hostOps3 (Function.update (W6 m c) main_v24 (o7 m c))
def o9 (c : Dev nD) : Buf (Elt F) ((c : Thread nD τ).loc main_v26) := (dat3 (fun c b => W8 m c b) c).arrAt 3 cfg3.N

/-- The unknowns of the chain, each call's result computed from the contents the earlier results fix. -/
def outsD : Gen.Outs (F := F) := fun _ r c =>
  Function.update (Function.update (Function.update (Function.update (fun r => m ((c : Thread nD τ).loc r))
    main_v5 (o3 m c)) main_v8 (o5 m c)) main_v24 (o7 m c)) main_v26 (o9 m c) r

theorem outsD_v5 (J : ℕ) (c : Dev nD) : outsD m J main_v5 c = o3 m c :=
  (Function.update_of_ne (by decide +revert) _ _).trans ((Function.update_of_ne (by decide +revert) _ _).trans
    ((Function.update_of_ne (by decide +revert) _ _).trans (Function.update_self _ _ _)))
theorem outsD_v8 (J : ℕ) (c : Dev nD) : outsD m J main_v8 c = o5 m c :=
  (Function.update_of_ne (by decide +revert) _ _).trans ((Function.update_of_ne (by decide +revert) _ _).trans (Function.update_self _ _ _))
theorem outsD_v24 (J : ℕ) (c : Dev nD) : outsD m J main_v24 c = o7 m c :=
  (Function.update_of_ne (by decide +revert) _ _).trans (Function.update_self _ _ _)

/-- The contents a call is entered from read only the earlier calls' results. -/
theorem V4_outsD (c : Dev nD) : Gen.V4 m (outsD m) c = W4 m c :=
  congrArg (fun x => StableHlo.after hostOps1 (Function.update (Gen.V2 m c) main_v5 x)) (outsD_v5 m 3 c)
theorem V6_outsD (c : Dev nD) : Gen.V6 m (outsD m) c = W6 m c :=
  congrArg₂ (fun V x => StableHlo.after hostOps2 (Function.update V main_v8 x)) (V4_outsD m c) (outsD_v8 m 5 c)
theorem V8_outsD (c : Dev nD) : Gen.V8 m (outsD m) c = W8 m c :=
  congrArg₂ (fun V x => StableHlo.after hostOps3 (Function.update V main_v24 x)) (V6_outsD m c) (outsD_v24 m 7 c)

theorem outsD_ok : OutsOK m (outsD m) where
  h3 c := outsD_v5 m 3 c
  h5 c := (outsD_v8 m 5 c).trans (congrArg (fun V => (dat1 V c).arrAt 3 cfg1.N)
    (funext fun c => funext fun b => (congrFun (V4_outsD m c) b).symm))
  h7 c := (outsD_v24 m 7 c).trans (congrArg (fun V => (dat2 V c).arrAt 12 cfg2.N)
    (funext fun c => funext fun b => (congrFun (V6_outsD m c) b).symm))
  h9 c := (Function.update_self _ _ _).trans (congrArg (fun V => (dat3 V c).arrAt 3 cfg3.N)
    (funext fun c => funext fun b => (congrFun (V8_outsD m c) b).symm))

end Cert.KernelIdeal.Hand

end
-- ==== Proof.KI.Run0.lean ====
import proofs.«424417_j2491081031820_3_alg».proof.Proof.KI.RunBase

set_option maxRecDepth 16384

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F]

variable (m : (ℓ : Loc nD τ sig) → Buf (Elt F) ℓ) (outs : Gen.Outs (F := F))

set_option backward.isDefEq.respectTransparency.types false in
/-- Call 0: its arrays are distinct whole buffers, read off the contents before it and put back with the output replaced. -/
def reg0 (hO : OutsOK m outs) : RegionSeg (pcfgs (F := F)) Gen.adm (pdats m outs) () defs₀ 𝒱₀ L lv 0 :=
  regOf m outs 0 launch0.win.to₀ launch0.block_pos launch0.stage_whole (body_obligation0 (E0 m)) (Gen.V2 m) (Gen.V3 m outs)
    (fun c => by
      have h := Pipeline.arrays_of_unscopedBufs (p := 0) (pcfgs (F := F)) Gen.adm (pdats m outs) launch0.win launch0.arr_whole c
        ((pdats m outs 0 c).share_full fun _ => rfl) (E0 m c) fun _ => rfl
      rwa [Pipeline.unscopedBufs_held] at h)
    (fun c => by
      have h := Pipeline.unscopedBufs_of_arrays (p := 0) (pcfgs (F := F)) Gen.adm (Ix := Unit) (Name := ℕ) (U := UR sig nD τ) (Lvl := ℕ)
        launch0.win launch0.arr_whole c (pdats m outs) ((pdats m outs 0 c).share_full fun _ => rfl)
        (E0 m c) (fun b => Gen.V3 m outs c b) ((pdats m outs 0 c).arrAt · cfg0.N)
        (fun w => by
          match w with
          | ⟨2, _⟩ => exact (hO.h3 c).symm.trans (V3_out m outs c).symm
          | ⟨0, _⟩ => exact ((pdats m outs 0 c).arrAt_in 0 rfl _).trans (Gen.V3_of m outs c main_v1 (by decide)).symm
          | ⟨1, _⟩ => exact ((pdats m outs 0 c).arrAt_in 1 rfl _).trans (Gen.V3_of m outs c main_v4 (by decide)).symm)
        (fun b hb => Gen.V3_of m outs c b (fun h => hb (by
          rw [List.mem_singleton] at h; subst h; exact Finset.mem_image.mpr ⟨2, Finset.mem_univ _, rfl⟩)))
      rwa [Pipeline.unscopedBufs_held] at h)

end Cert.KernelIdeal.Hand

end
-- ==== Proof.KI.Run1.lean ====
import proofs.«424417_j2491081031820_3_alg».proof.Proof.KI.RunBase

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (RegionSeg)

variable {F : FTy → Type} [FloatOps F]

local notation "𝕄" => MT nD τ sig Unit (Elt F) ℕ (UR sig nD τ) ℕ

variable (m : (ℓ : Loc nD τ sig) → Buf (Elt F) ℓ) (outs : Gen.Outs (F := F))

theorem img1 : Finset.univ.image (Pipeline.arrRef spec1) = ({main_v7, main_v8} : Finset (Ref sig .tc)) := by decide

/-- The call's two buffers at contents `W` are its arrays at contents read off `W`: the shared buffer's full share splits in three and joins back. -/
theorem arrays1 (c : Dev nD) (W : (b : Ref sig .tc) → Buf (Elt F) ((c : Thread nD τ).loc b))
    (A : (w : Fin cfg1.W) → Buf (Elt F) (((cfgs 1).win w).arr.view.loc (c : Thread nD τ))) (hA : ∀ w, A w = W (Pipeline.arrRef spec1 w)) :
    ((Pipeline.arrBufs (Ix := Unit) (Name := ℕ) (U := UR sig nD τ) (Lvl := ℕ) spec1 c W : sProp 𝕄) ⊢ (pdats m outs 1 c).arrays A)
      ∧ ((pdats m outs 1 c).arrays A ⊢ (Pipeline.arrBufs (Ix := Unit) (Name := ℕ) (U := UR sig nD τ) (Lvl := ℕ) spec1 c W : sProp 𝕄)) := by
  unfold Pipeline.arrBufs Pipeline.Dat.arrays
  rw [img1, bigSep_insert (by decide), bigSep_singleton, bigSep_W1]
  rw [show (pdats m outs 1 c).share 0 = fullShare.left from rfl, show (pdats m outs 1 c).share 1 = fullShare.right.left from rfl,
    show (pdats m outs 1 c).share 2 = fullShare.right.right from rfl, show (pdats m outs 1 c).share 3 = fullShare from rfl,
    show ((cfgs 1).win 0).arr.view.set = Finset.univ from (arr_whole1 0).set_eq_univ, show ((cfgs 1).win 1).arr.view.set = Finset.univ from (arr_whole1 1).set_eq_univ,
    show ((cfgs 1).win 2).arr.view.set = Finset.univ from (arr_whole1 2).set_eq_univ, show ((cfgs 1).win 3).arr.view.set = Finset.univ from (arr_whole1 3).set_eq_univ,
    hA 0, hA 1, hA 2, hA 3]
  have h7 := pointsTo_share (Ix := Unit) (Name := ℕ) (U := UR sig nD τ) (Lvl := ℕ) (ℓ := (c : Thread nD τ).loc main_v7) (I := Finset.univ)
    (f := W main_v7) (PosShare.mem_left_op_right fullShare)
  have h7r := pointsTo_share (Ix := Unit) (Name := ℕ) (U := UR sig nD τ) (Lvl := ℕ) (ℓ := (c : Thread nD τ).loc main_v7) (I := Finset.univ)
    (f := W main_v7) (PosShare.mem_left_op_right fullShare.right)
  constructor
  · refine (show (iprop((((c : Thread nD τ).loc main_v7) ↦{fullShare} W main_v7) ∗ (((c : Thread nD τ).loc main_v8) ↦{fullShare} W main_v8)) : sProp 𝕄) ⊢ _ from ?_)
    iintro ⟨H7, H8⟩
    ihave H := h7.1 $$ H7
    icases H with ⟨Ha, Hr⟩
    ihave H' := h7r.1 $$ Hr
    icases H' with ⟨Hb, Hc⟩
    isplitl [Ha]; · iexact Ha
    isplitl [Hb]; · iexact Hb
    isplitl [Hc]; · iexact Hc
    iexact H8
  · refine (show _ ⊢ (iprop((((c : Thread nD τ).loc main_v7) ↦{fullShare} W main_v7) ∗ (((c : Thread nD τ).loc main_v8) ↦{fullShare} W main_v8)) : sProp 𝕄) from ?_)
    iintro ⟨Ha, Hb, Hc, H8⟩
    isplitr [H8]
    · iapply h7.2
      isplitl [Ha]; · iexact Ha
      iapply h7r.2
      isplitl [Hb]; · iexact Hb
      iexact Hc
    iexact H8

theorem entry1 (c : Dev nD) :
    (StableHlo.held (c : Thread nD τ) (Pipeline.ucRefs τ sig) (Gen.V4 m outs c) : sProp 𝕄)
      ⊢ iprop((pdats m outs 1 c).arrays ((pdats m outs 1 c).arrAt · 0)
          ∗ Pipeline.unscopedRest (Ix := Unit) (Name := ℕ) (U := UR sig nD τ) (Lvl := ℕ) spec1 c (E1 m outs c)) := by
  rw [← Pipeline.unscopedBufs_held (Ix := Unit) (Name := ℕ) (U := UR sig nD τ) (Lvl := ℕ) c (Gen.V4 m outs c),
    Pipeline.unscopedBufs_split₀ (Pipeline.pin (pcfgs (F := F)) Gen.adm) 1 winFacts₀1.arr_unscoped c]
  exact sep_mono (arrays1 m outs c _ _ fun _ => rfl).1 .rfl

theorem exit1 (hO : OutsOK m outs) (c : Dev nD) :
    iprop((pdats m outs 1 c).arrays ((pdats m outs 1 c).arrAt · cfg1.N)
        ∗ Pipeline.unscopedRest (Ix := Unit) (Name := ℕ) (U := UR sig nD τ) (Lvl := ℕ) spec1 c (E1 m outs c))
      ⊢ (StableHlo.held (c : Thread nD τ) (Pipeline.ucRefs τ sig) (Gen.V5 m outs c) : sProp 𝕄) := by
  rw [← Pipeline.unscopedBufs_held (Ix := Unit) (Name := ℕ) (U := UR sig nD τ) (Lvl := ℕ) c (Gen.V5 m outs c),
    Pipeline.unscopedBufs_split₀ (Pipeline.pin (pcfgs (F := F)) Gen.adm) 1 winFacts₀1.arr_unscoped c]
  refine sep_mono (arrays1 m outs c _ _ fun w => ?_).2 (Entails.of_eq ?_)
  · match w with
    | ⟨3, _⟩ => exact (hO.h5 c).symm.trans (V5_out m outs c).symm
    | ⟨0, _⟩ => exact ((pdats m outs 1 c).arrAt_in 0 rfl _).trans (Gen.V5_of m outs c main_v7 (by decide)).symm
    | ⟨1, _⟩ => exact ((pdats m outs 1 c).arrAt_in 1 rfl _).trans (Gen.V5_of m outs c main_v7 (by decide)).symm
    | ⟨2, _⟩ => exact ((pdats m outs 1 c).arrAt_in 2 rfl _).trans (Gen.V5_of m outs c main_v7 (by decide)).symm
  · unfold Pipeline.unscopedRest
    exact bigSep_congr fun b hb => congrArg _ (Gen.V5_of m outs c b (fun h => (Finset.mem_sdiff.mp hb).2 (by
      rw [List.mem_singleton] at h; subst h; exact Finset.mem_image.mpr ⟨3, Finset.mem_univ _, rfl⟩))).symm

set_option backward.isDefEq.respectTransparency.types false in
/-- Call 1: its three input windows read one array, whose full share is split three ways on entry and joined on exit. -/
def reg1 (hO : OutsOK m outs) : RegionSeg (pcfgs (F := F)) Gen.adm (pdats m outs) () defs₀ 𝒱₀ L lv 1 :=
  regOf m outs 1 winFacts₀1 block_pos1 stage_whole1 (body_obligation1 (E1 m outs)) (Gen.V4 m outs) (Gen.V5 m outs)
    (entry1 m outs) (exit1 m outs hO)

end Cert.KernelIdeal.Hand

end
-- ==== Proof.KI.Run2.lean ====
import proofs.«424417_j2491081031820_3_alg».proof.Proof.KI.RunBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Gen.Outs (F := F))

set_option maxHeartbeats 4000000 in
set_option backward.isDefEq.respectTransparency.types false in
def reg2 (hO : OutsOK m outs) : RegionSeg (pcfgs (F := F)) Gen.adm (pdats m outs) () defs₀ 𝒱₀ L lv 2 :=
  regOf m outs 2 launch2.win.to₀ launch2.block_pos launch2.stage_whole (body_obligation2 (E2 m outs)) (Gen.V6 m outs) (Gen.V7 m outs)
    (fun c => by
      have h := Pipeline.arrays_of_unscopedBufs (p := 2) (pcfgs (F := F)) Gen.adm (pdats m outs) launch2.win launch2.arr_whole c
        ((pdats m outs 2 c).share_full fun _ => rfl) (E2 m outs c) fun _ => rfl
      rwa [Pipeline.unscopedBufs_held] at h)
    fun c => by
      have h := Pipeline.unscopedBufs_of_arrays (p := 2) (pcfgs (F := F)) Gen.adm (Ix := Unit) (Name := ℕ) (U := UR sig nD τ) (Lvl := ℕ)
        launch2.win launch2.arr_whole c (pdats m outs) ((pdats m outs 2 c).share_full fun _ => rfl)
        (E2 m outs c) (fun b => Gen.V7 m outs c b) ((pdats m outs 2 c).arrAt · cfg2.N)
        (fun w => by
          match w with
          | ⟨0, _⟩ => exact ((pdats m outs 2 c).arrAt_in 0 rfl _).trans (Gen.V7_of m outs c main_v10 (by decide)).symm
          | ⟨1, _⟩ => exact ((pdats m outs 2 c).arrAt_in 1 rfl _).trans (Gen.V7_of m outs c main_v1 (by decide)).symm
          | ⟨2, _⟩ => exact ((pdats m outs 2 c).arrAt_in 2 rfl _).trans (Gen.V7_of m outs c main_v12 (by decide)).symm
          | ⟨3, _⟩ => exact ((pdats m outs 2 c).arrAt_in 3 rfl _).trans (Gen.V7_of m outs c main_v17 (by decide)).symm
          | ⟨4, _⟩ => exact ((pdats m outs 2 c).arrAt_in 4 rfl _).trans (Gen.V7_of m outs c main_v20 (by decide)).symm
          | ⟨5, _⟩ => exact ((pdats m outs 2 c).arrAt_in 5 rfl _).trans (Gen.V7_of m outs c main_v21 (by decide)).symm
          | ⟨6, _⟩ => exact ((pdats m outs 2 c).arrAt_in 6 rfl _).trans (Gen.V7_of m outs c main_v14 (by decide)).symm
          | ⟨7, _⟩ => exact ((pdats m outs 2 c).arrAt_in 7 rfl _).trans (Gen.V7_of m outs c main_v18 (by decide)).symm
          | ⟨8, _⟩ => exact ((pdats m outs 2 c).arrAt_in 8 rfl _).trans (Gen.V7_of m outs c main_v16 (by decide)).symm
          | ⟨9, _⟩ => exact ((pdats m outs 2 c).arrAt_in 9 rfl _).trans (Gen.V7_of m outs c main_v19 (by decide)).symm
          | ⟨10, _⟩ => exact ((pdats m outs 2 c).arrAt_in 10 rfl _).trans (Gen.V7_of m outs c main_v22 (by decide)).symm
          | ⟨11, _⟩ => exact ((pdats m outs 2 c).arrAt_in 11 rfl _).trans (Gen.V7_of m outs c main_v23 (by decide)).symm
          | ⟨12, _⟩ => exact (hO.h7 c).symm.trans (V7_out m outs c).symm)
        (fun b hb => Gen.V7_of m outs c b (fun h => hb (by
          rw [List.mem_singleton] at h; subst h; exact Finset.mem_image.mpr ⟨12, Finset.mem_univ _, rfl⟩)))
      rwa [Pipeline.unscopedBufs_held] at h

end Cert.KernelIdeal.Hand

end
-- ==== Proof.KI.Run3.lean ====
import proofs.«424417_j2491081031820_3_alg».proof.Proof.KI.RunBase

set_option maxRecDepth 16384

noncomputable section

namespace Cert.KernelIdeal.Hand

open Cert.KernelIdeal Cert.KernelIdeal.Gen
open Idealize.ShloMosaic Idealize.ShloMosaic.TcCoe
open Idealize.ShloMosaic.Pipeline (RegionSeg)

variable {F : FTy → Type} [FloatOps F]

variable (m : (ℓ : Loc nD τ sig) → Buf (Elt F) ℓ) (outs : Gen.Outs (F := F))

set_option maxHeartbeats 4000000 in
set_option backward.isDefEq.respectTransparency.types false in
/-- Call 3: its arrays are distinct whole buffers, read off the contents before it and put back with the output replaced. -/
def reg3 (hO : OutsOK m outs) : RegionSeg (pcfgs (F := F)) Gen.adm (pdats m outs) () defs₀ 𝒱₀ L lv 3 :=
  regOf m outs 3 launch3.win.to₀ launch3.block_pos launch3.stage_whole (body_obligation3 (E3 m outs)) (Gen.V8 m outs) (Gen.V9 m outs)
    (fun c => by
      have h := Pipeline.arrays_of_unscopedBufs (p := 3) (pcfgs (F := F)) Gen.adm (pdats m outs) launch3.win launch3.arr_whole c
        ((pdats m outs 3 c).share_full fun _ => rfl) (E3 m outs c) fun _ => rfl
      rwa [Pipeline.unscopedBufs_held] at h)
    (fun c => by
      have h := Pipeline.unscopedBufs_of_arrays (p := 3) (pcfgs (F := F)) Gen.adm (Ix := Unit) (Name := ℕ) (U := UR sig nD τ) (Lvl := ℕ)
        launch3.win launch3.arr_whole c (pdats m outs) ((pdats m outs 3 c).share_full fun _ => rfl)
        (E3 m outs c) (fun b => Gen.V9 m outs c b) ((pdats m outs 3 c).arrAt · cfg3.N)
        (fun w => by
          match w with
          | ⟨3, _⟩ => exact (hO.h9 c).symm.trans (V9_out m outs c).symm
          | ⟨0, _⟩ => exact ((pdats m outs 3 c).arrAt_in 0 rfl _).trans (Gen.V9_of m outs c main_v24 (by decide)).symm
          | ⟨1, _⟩ => exact ((pdats m outs 3 c).arrAt_in 1 rfl _).trans (Gen.V9_of m outs c main_arg15 (by decide)).symm
          | ⟨2, _⟩ => exact ((pdats m outs 3 c).arrAt_in 2 rfl _).trans (Gen.V9_of m outs c main_v25 (by decide)).symm)
        (fun b hb => Gen.V9_of m outs c b (fun h => hb (by
          rw [List.mem_singleton] at h; subst h; exact Finset.mem_image.mpr ⟨3, Finset.mem_univ _, rfl⟩)))
      rwa [Pipeline.unscopedBufs_held] at h)

end Cert.KernelIdeal.Hand

end
-- ==== Proof.KI.RunAll.lean ====
import proofs.«424417_j2491081031820_3_alg».proof.Proof.KI.Run0
import proofs.«424417_j2491081031820_3_alg».proof.Proof.KI.Run1
import proofs.«424417_j2491081031820_3_alg».proof.Proof.KI.Run2
import proofs.«424417_j2491081031820_3_alg».proof.Proof.KI.Run3
import proofs.«424417_j2491081031820_3_alg».proof.Proof.KI.RunCond
import proofs.«424417_j2491081031820_3_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Gen.Outs (F := F))

set_option maxHeartbeats 4000000 in
set_option backward.isDefEq.respectTransparency.types false in
/-- Every weakly fair execution of @main terminates with each unscoped buffer at the last boundary's contents. -/
theorem runAll (ρ : Dev nD → PrngReg) (hO : OutsOK m outs) :
    θ_run defs (onTc (τ := τ) (main (F := F))) ⟨m, fun _ => 0, ρ⟩ (fun r => ∀ c : Dev nD,
      ∀ b ∈ Pipeline.ucRefs τ sig, r.2.mem ((c : Thread nD τ).1, b) = Gen.V9 m outs c b) :=
  run_cond m emb₁ () 𝒱₀ L lv (fun _ _ => rfl) ρ outs (pdats m outs) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ emp) : sProp 𝕄) ⊢ R c := fun c => by
        iintro ⟨-, HO, -, Hp, -⟩
        isplitl [Hp]; · iexists _; iexact Hp
        iexists ∅; iexact HO
      have hmono : (bigSep Finset.univ (fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ emp)) : sProp 𝕄)
          ⊢ bigSep Finset.univ (fun c : Dev nD => R c) :=
        bigSep_mono fun c _ => hcore c
      iintro ⟨H, -⟩
      imodintro
      iapply hmono
      iexact H)
    (fun c => by iintro ⟨-, H⟩; iexact H)
    (reg0 m outs hO) (fun _ => .rfl) (fun _ => .rfl)
    (reg1 m outs hO) (fun _ => .rfl) (fun _ => .rfl)
    (reg2 m outs hO) (fun _ => .rfl) (fun _ => .rfl)
    (reg3 m outs hO) (fun _ => .rfl) (fun _ => .rfl)

/-- Each argument's buffer holds on core `c` what it held at launch. -/
def ArgsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)

/-- The run read at the result array and at the arguments, which no boundary changes. -/
theorem runArgs (ρ : Dev nD → PrngReg) (hO : OutsOK m outs) :
    θ_run defs (onTc (τ := τ) (main (F := F))) ⟨m, fun _ => 0, ρ⟩ (fun r => ∀ c : Dev nD,
      r.2.mem ((c.tc : Thread nD τ).loc main_v26) = Gen.V9 m outs c main_v26 ∧ ArgsKept m r.2.mem c) :=
  (θ_run defs _ _).mono (fun r h c => by
    have rd := fun (b : Ref sig .tc) hb => h c (Proc.devRef .tc b) (Finset.mem_filter.mpr ⟨StableHlo.devRef_mem_tcRefs b, hb⟩)
    exact ⟨rd main_v26 (by decide),
      (rd main_arg0 (by decide)).trans (V9_main_arg0 m outs c),
      (rd main_arg1 (by decide)).trans (V9_main_arg1 m outs c),
      (rd main_arg2 (by decide)).trans (V9_main_arg2 m outs c),
      (rd main_arg3 (by decide)).trans (V9_main_arg3 m outs c),
      (rd main_arg4 (by decide)).trans (V9_main_arg4 m outs c),
      (rd main_arg5 (by decide)).trans (V9_main_arg5 m outs c),
      (rd main_arg6 (by decide)).trans (V9_main_arg6 m outs c),
      (rd main_arg7 (by decide)).trans (V9_main_arg7 m outs c),
      (rd main_arg8 (by decide)).trans (V9_main_arg8 m outs c),
      (rd main_arg9 (by decide)).trans (V9_main_arg9 m outs c),
      (rd main_arg10 (by decide)).trans (V9_main_arg10 m outs c),
      (rd main_arg11 (by decide)).trans (V9_main_arg11 m outs c),
      (rd main_arg12 (by decide)).trans (V9_main_arg12 m outs c),
      (rd main_arg13 (by decide)).trans (V9_main_arg13 m outs c),
      (rd main_arg14 (by decide)).trans (V9_main_arg14 m outs c),
      (rd main_arg15 (by decide)).trans (V9_main_arg15 m outs c),
      (rd main_arg16 (by decide)).trans (V9_main_arg16 m outs c)⟩)
    (runAll m outs ρ hO)

/-- The frame: the run ends, and the arguments are as launched. -/
theorem frame (ρ : Dev nD → PrngReg) :
    θ_run defs (onTc (τ := τ) (main (F := F))) ⟨m, fun _ => 0, ρ⟩ (fun r => ∀ c : Dev nD, ArgsKept m r.2.mem c) :=
  (θ_run defs _ _).mono (fun _ h c => (h c).2) (runArgs m (outsD m) ρ (outsD_ok m))

end Cert.KernelIdeal.Hand

end
-- ==== Proof.Spec.lean ====
/- The layer's formula over plain index types and the extended reals; constants stay the words both programs carry. -/
import Idealize.ShloMosaic.PureOps.Ideal

noncomputable section

namespace Cert.Spec

open Idealize.ShloMosaic

abbrev cScale : EReal := Ideal.ofBits .f32 0x3D000000#32
abbrev cNegInf : EReal := Ideal.ofBits .f32 0xFF800000#32
abbrev cN : EReal := Ideal.ofBits .f32 0x44800000#32
abbrev cEps : EReal := Ideal.ofBits .f32 0x3727C5AC#32
abbrev cZero : EReal := Ideal.ofBits .f32 0x00000000#32

/-- Flattened row `4 s + b` is position `s` of batch `b`. -/
def rowOf (s : Fin 1024) (b : Fin 4) : Fin 4096 := ⟨4 * s.val + b.val, by omega⟩
def batchOf (r : Fin 4096) : Fin 4 := ⟨r.val % 4, by omega⟩
def posOf (r : Fin 4096) : Fin 1024 := ⟨r.val / 4, by omega⟩

theorem rowOf_batchOf_posOf (r : Fin 4096) : rowOf (posOf r) (batchOf r) = r := by
  apply Fin.ext; simp only [rowOf, posOf, batchOf]; omega
theorem batchOf_rowOf (s : Fin 1024) (b : Fin 4) : batchOf (rowOf s b) = b := by
  apply Fin.ext; simp only [rowOf, batchOf]; omega
theorem posOf_rowOf (s : Fin 1024) (b : Fin 4) : posOf (rowOf s b) = s := by
  apply Fin.ext; simp only [rowOf, posOf]; omega

/-- A row against a weight matrix: `∑ d, x d · W e d`. -/
def lin {n k : ℕ} (x : Fin k → EReal) (W : Fin n → Fin k → EReal) (e : Fin n) : EReal := ∑ d, x d * W e d

/-- Centre by the mean, scale by the reciprocal root of the variance plus `cEps`, then gain and shift. -/
def ln (x g be : Fin 1024 → EReal) (e : Fin 1024) : EReal :=
  (x e - Ideal.div (∑ d, x d) cN)
    * Ideal.rsqrt (Ideal.div (∑ d, (x d - Ideal.div (∑ d', x d') cN) * (x d - Ideal.div (∑ d', x d') cN)) cN + cEps)
    * g e + be e

section Attention

variable (Q K V : Fin 4 → Fin 1024 → Fin 1024 → EReal)

def score (b : Fin 4) (q k : Fin 1024) : EReal := (∑ d, Q b q d * K b k d) * cScale
/-- The row maximum, folded from −∞. -/
def smax (b : Fin 4) (q : Fin 1024) : EReal :=
  (Finset.univ : Finset (Fin 1024)).fold max cNegInf (fun k => score Q K b q k)
def pexp (b : Fin 4) (q k : Fin 1024) : EReal := Ideal.exp (score Q K b q k - smax Q K b q)
def psum (b : Fin 4) (q : Fin 1024) : EReal := ∑ k, pexp Q K b q k
def attn (b : Fin 4) (q k : Fin 1024) : EReal := Ideal.div (pexp Q K b q k) (psum Q K b q)
/-- Softmax weights against the value rows. -/
def zat (b : Fin 4) (q d : Fin 1024) : EReal := ∑ k, attn Q K b q k * V b k d

end Attention

section Post

variable (z x : Fin 1024 → EReal) (Wo : Fin 1024 → Fin 1024 → EReal) (bo g1 be1 : Fin 1024 → EReal)
variable (W1 : Fin 4096 → Fin 1024 → EReal) (b1 : Fin 4096 → EReal) (W2 : Fin 1024 → Fin 4096 → EReal)
variable (b2 g2 be2 : Fin 1024 → EReal)

def xpre (e : Fin 1024) : EReal := x e + (lin z Wo e + bo e)
def x1 : Fin 1024 → EReal := ln (xpre z x Wo bo) g1 be1
def hid (h : Fin 4096) : EReal := max (lin (x1 z x Wo bo g1 be1) W1 h + b1 h) cZero
def ffn (e : Fin 1024) : EReal := lin (hid z x Wo bo g1 be1 W1 b1) W2 e + b2 e
/-- Projection and residual, norm, feed-forward and residual, norm. -/
def outp : Fin 1024 → EReal :=
  ln (fun e => x1 z x Wo bo g1 be1 e + ffn z x Wo bo g1 be1 W1 b1 W2 b2 e) g2 be2

end Post

def dec (o : Fin 1024 → EReal) (Wd : Fin 32000 → Fin 1024 → EReal) (bd : Fin 32000 → EReal) (v : Fin 32000) : EReal :=
  lin o Wd v + bd v

def proj (X : Fin 4096 → Fin 1024 → EReal) (W : Fin 1024 → Fin 1024 → EReal) (b : Fin 4) (s e : Fin 1024) : EReal :=
  lin (X (rowOf s b)) W e

/-- The logits of flattened row `r` at vocabulary entry `v`. -/
def logits (X : Fin 4096 → Fin 1024 → EReal) (WQ WK WV Wo : Fin 1024 → Fin 1024 → EReal) (bo g1 be1 : Fin 1024 → EReal)
    (W1 : Fin 4096 → Fin 1024 → EReal) (b1 : Fin 4096 → EReal) (W2 : Fin 1024 → Fin 4096 → EReal) (b2 g2 be2 : Fin 1024 → EReal)
    (Wd : Fin 32000 → Fin 1024 → EReal) (bd : Fin 32000 → EReal) (r : Fin 4096) (v : Fin 32000) : EReal :=
  dec (outp (fun d => zat (proj X WQ) (proj X WK) (proj X WV) (batchOf r) (posOf r) d) (X r) Wo bo g1 be1 W1 b1 W2 b2 g2 be2) Wd bd v

end Cert.Spec

end
-- ==== Proof.Val.K0Pay.lean ====
import proofs.«424417_j2491081031820_3_alg».proof.Proof.Gen.KernelIdeal.Skeleton
import proofs.«424417_j2491081031820_3_alg».proof.Proof.Spec
import Idealize.ShloMosaic.Lib.ValueLayout
import Idealize.ShloMosaic.PureOps.Ideal.Laws

noncomputable section

namespace Cert.KernelIdeal.HandV

open Cert.KernelIdeal Cert.KernelIdeal.Gen Idealize.ShloMosaic ValueIdx

/-- A product accumulated into zero over one contracted axis of extent n, at an output index: the sum over that axis of the operands' products. -/
theorem matmul_zero_apply {sl sr so : Shape} {φ₁ φ₂ : FTy} (D : DotDims sl sr so) (n : ℕ) (hr : D.contr.rank = 1)
    (hs : D.contr.size ⟨0, by omega⟩ = n) (A : FVec Ideal sl φ₁) (B : FVec Ideal sr φ₂) (j : so.Idx)
    (l : Fin n → sl.Idx) (r : Fin n → sr.Idx)
    (hl : ∀ d, D.lhsIdx j ((contrEquiv1 D n hr hs).symm d) = l d)
    (hr' : ∀ d, D.rhsIdx j ((contrEquiv1 D n hr hs).symm d) = r d) :
    matmul D none A B (constant so .f32 0x00000000#32) j = ∑ d, A (l d) * B (r d) := by
  show FloatOps.matmul D none A B _ j = _
  rw [Ideal.matmul_constant_zero_apply, ← Equiv.sum_comp (contrEquiv1 D n hr hs).symm]
  exact Finset.sum_congr rfl fun d _ => by rw [hl, hr']

/-- Entry (p, j) of the stored block is row p of the first block against column j of the second. -/
theorem k0_pay1_lin (x0 : Vec Ideal S512x1024 .f32) (x1 : Vec Ideal S1024x3072 .bf16) (p : Fin 512) (j : Fin 3072) :
    k0_pay1 x0 x1 (ix2 p j)
      = Cert.Spec.lin (fun d : Fin 1024 => x0 (ix2 p d)) (fun (j : Fin 3072) (d : Fin 1024) => x1 (ix2 d j)) j := by
  unfold k0_pay1
  rw [shapeCast_self, shapeCast_self]
  exact matmul_zero_apply (φ₂ := .bf16) _ 1024 rfl rfl _ _ _ (ix2 p ·) (ix2 · j) (fun _ => Shape.idx_ext₂ rfl rfl) fun _ => Shape.idx_ext₂ rfl rfl

end Cert.KernelIdeal.HandV

end
-- ==== Proof.Val.K0.lean ====
import proofs.«424417_j2491081031820_3_alg».proof.Proof.KI.Reg0
import proofs.«424417_j2491081031820_3_alg».proof.Proof.Val.K0Pay

noncomputable section

namespace Cert.KernelIdeal.HandV

open Cert.KernelIdeal Cert.KernelIdeal.Gen Cert.KernelIdeal.Hand Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

/-- The array the region leaves: entry (r, j) is row r of the first array against column j of the second. -/
def k0_G (c : Dev nD) : S4096x3072.Idx → EReal := fun i =>
  Cert.Spec.lin (fun d : Fin 1024 => V c main_v1 (ix2 (i 0 : Fin 4096) d))
    (fun (j : Fin 3072) (d : Fin 1024) => V c main_v4 (ix2 d j)) (i 1 : Fin 3072)

theorem k0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The flushed block at point t is block t of that array: the input blocks are the arrays' rows 512 t + p and all their columns. -/
theorem k0_flushed_eq (c : Dev nD) (t : Fin cfg0.N) :
    (dat0 (F := Ideal) V c).flushed 2 t = ((cfg0.win 2).blk t).view.read (Elt Ideal) (k0_G V c) := by
  show (cfg0.win 2).cut (grid0.coords t) ((dat0 V c).after 2 t) = _
  rw [after0_2]
  unfold out0_2
  have hz : (![0, 0] : Fin 2 → ℕ) = fun _ => 0 := by decide
  rw [View.canon_unit_zero hz]
  simp only [View.ld_unit_zero (S := S512x1024) hz, View.ld_unit_zero (S := S1024x3072) hz]
  obtain ⟨e00, e01, e10, e11, e20, e21⟩ := k0_idx_facts t
  funext y
  obtain ⟨p, q, rfl⟩ : ∃ (p : Fin 512) (q : Fin 3072), y = ix2 p q := ⟨y 0, y 1, eq_ix2 y⟩
  show k0_pay1 (iblk0 V c 0 t) (iblk0 V c 1 t) (ix2 p q) = k0_G V c (((cfg0.win 2).blk t).view.emb (ix2 p q))
  rw [k0_pay1_lin]
  unfold k0_G Cert.Spec.lin
  refine Finset.sum_congr rfl fun d _ => congrArg₂ (fun a b : EReal => a * b) ?_ ?_
  · show V c main_v1 (((cfg0.win 0).blk t).view.emb (ix2 p d)) = V c main_v1 _
    refine congrArg _ (Shape.idx_ext₂ ?_ ?_)
    · show win0_0.index t (0 : Fin 2) * 512 + 1 * p.val = win0_2.index t (0 : Fin 2) * 512 + 1 * p.val; omega
    · show win0_0.index t (1 : Fin 2) * 1024 + 1 * d.val = d.val; omega
  · show V c main_v4 (((cfg0.win 1).blk t).view.emb (ix2 d q)) = V c main_v4 _
    refine congrArg _ (Shape.idx_ext₂ ?_ ?_)
    · show win0_1.index t (0 : Fin 2) * 1024 + 1 * d.val = d.val; omega
    · show win0_1.index t (1 : Fin 2) * 3072 + 1 * q.val = win0_2.index t (1 : Fin 2) * 3072 + 1 * q.val; omega

/-- Every entry lies in some point's block: row r in that of point r / 512, whose columns are all of them. -/
theorem k0_cover (i : S4096x3072.Idx) :
    ∃ t : Fin cfg0.N, (cfg0.win 2).flush t = true ∧ i ∈ ((cfg0.win 2).blk t).view.set := by
  have hi0 := idx2_lt0 i
  have hi1 := idx2_lt1 i
  have hN : cfg0.N = 8 := N_0
  obtain ⟨t, ht⟩ : ∃ t : Fin cfg0.N, t.val = (i 0).val / 512 := ⟨⟨(i 0).val / 512, by omega⟩, rfl⟩
  obtain ⟨-, -, -, -, e20, e21⟩ := k0_idx_facts t
  refine ⟨t, flush0_2 t, ?_⟩
  show i ∈ ((View.whole main_v5).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

theorem final0 (c : Dev nD) (r : Fin 4096) (j : Fin 3072) : (dat0 (F := Ideal) V c).arrAt 2 cfg0.N (ix2 r j)
      = Cert.Spec.lin (fun d : Fin 1024 => V c main_v1 (ix2 r d)) (fun (j : Fin 3072) (d : Fin 1024) => V c main_v4 (ix2 d j)) j :=
  congrFun ((dat0 (F := Ideal) V c).arrAt_eq_of_cover 2 (k0_G V c) (fun t _ => k0_flushed_eq V c t) k0_cover) (ix2 r j)

end Cert.KernelIdeal.HandV

end
-- ==== Proof.Val.K1Pay.lean ====
import proofs.«424417_j2491081031820_3_alg».proof.Proof.Val.K0Pay

noncomputable section

namespace Cert.KernelIdeal.HandV

open Cert.KernelIdeal Cert.KernelIdeal.Gen Idealize.ShloMosaic ValueIdx

/-- A vector cast to a column reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- A column broadcast along its rows reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h _ (ix2 p (0 : Fin 1)) fun ax => match ax with
    | ⟨0, _⟩ => by show p.val = if a = 1 then 0 else p.val; split <;> omega
    | ⟨1, _⟩ => rfl

/-- A row's maximum is the fold of max over the row. -/
theorem rowmax_apply (X : FVec Ideal S1024x1024 .f32) (q : Fin 1024) :
    multiReduction .maximumf [1] S1024 X 0xFF800000#32 reduces_S1024x1024_S1024 (.inl rfl) rfl (ix1 q)
      = (Finset.univ : Finset (Fin 1024)).fold max (Ideal.ofBits .f32 0xFF800000#32) (fun k => X (ix2 q k)) :=
  (Ideal.multiReduction_maximumf_single X _ reduces_S1024x1024_S1024 (.inl rfl) rfl (ix1 q)).trans
    (congrArg (Finset.fold max _ · Finset.univ) (funext fun _ => congrArg X (Shape.idx_ext₂ rfl rfl)))

/-- A row's sum. -/
theorem rowsum_apply (X : FVec Ideal S1024x1024 .f32) (q : Fin 1024) :
    multiReduction .add [1] S1024 X 0x00000000#32 reduces_S1024x1024_S1024 (.inl rfl) rfl (ix1 q)
      = ∑ k : Fin 1024, X (ix2 q k) :=
  (Ideal.multiReduction_add_single X _ reduces_S1024x1024_S1024 (.inl rfl) rfl (ix1 q)).trans
    (Finset.sum_congr rfl fun _ _ => congrArg X (Shape.idx_ext₂ rfl rfl))

/-- The score product at (q, k): the query row against the key row. -/
theorem qk_apply (A B : FVec Ideal S1024x1024 .bf16) (q k : Fin 1024) :
    matmul dot_S1024x1024_S1024x1024_S1024x1024_1_1_0_0_n_n none A B (constant S1024x1024 .f32 0x00000000#32) (ix2 q k)
      = ∑ d : Fin 1024, A (ix2 q d) * B (ix2 k d) :=
  matmul_zero_apply _ 1024 rfl rfl A B _ _ _ (fun _ => Shape.idx_ext₂ rfl rfl) fun _ => Shape.idx_ext₂ rfl rfl

/-- The second product at (q, d): the weight row against the value column. -/
theorem pv_apply (A B : FVec Ideal S1024x1024 .bf16) (q d : Fin 1024) :
    matmul dot_S1024x1024_S1024x1024_S1024x1024_1_0_0_1_n_n none A B (constant S1024x1024 .f32 0x00000000#32) (ix2 q d)
      = ∑ k : Fin 1024, A (ix2 q k) * B (ix2 k d) :=
  matmul_zero_apply _ 1024 rfl rfl A B _ _ _ (fun _ => Shape.idx_ext₂ rfl rfl) fun _ => Shape.idx_ext₂ rfl rfl

def scoreMat (x0 x1 : Vec Ideal S1x1024x1024 .bf16) : FVec Ideal S1024x1024 .f32 :=
  mulf (matmul dot_S1024x1024_S1024x1024_S1024x1024_1_1_0_0_n_n none
      (shapeCast S1024x1024 x0 shapeCasts_S1x1024x1024_S1024x1024 : FVec Ideal S1024x1024 .bf16)
      (shapeCast S1024x1024 x1 shapeCasts_S1x1024x1024_S1024x1024 : FVec Ideal S1024x1024 .bf16)
      (constant S1024x1024 .f32 0x00000000#32))
    (broadcast S1024x1024 (Scalar.ofBits .f32 0x3D000000#32))

def expMat (x0 x1 : Vec Ideal S1x1024x1024 .bf16) : FVec Ideal S1024x1024 .f32 :=
  exp (subf (scoreMat x0 x1)
    (broadcastTo S1024x1024
      (shapeCast S1024x1 (multiReduction .maximumf [1] S1024 (scoreMat x0 x1) 0xFF800000#32 reduces_S1024x1024_S1024 (.inl rfl) rfl)
        shapeCasts_S1024_S1024x1)
      broadcasts_S1024x1_S1024x1024))

def weightMat (x0 x1 : Vec Ideal S1x1024x1024 .bf16) : FVec Ideal S1024x1024 .bf16 :=
  truncf .bf16 (divf (expMat x0 x1)
    (broadcastTo S1024x1024
      (shapeCast S1024x1 (multiReduction .add [1] S1024 (expMat x0 x1) 0x00000000#32 reduces_S1024x1024_S1024 (.inl rfl) rfl)
        shapeCasts_S1024_S1024x1)
      broadcasts_S1024x1_S1024x1024)) bitsLt_bf16_f32

theorem k1_pay1_eq (x0 x1 x2 : Vec Ideal S1x1024x1024 .bf16) :
    k1_pay1 x0 x1 x2 = shapeCast S1x1024x1024
      (matmul dot_S1024x1024_S1024x1024_S1024x1024_1_0_0_1_n_n none (weightMat x0 x1)
        (shapeCast S1024x1024 x2 shapeCasts_S1x1024x1024_S1024x1024 : FVec Ideal S1024x1024 .bf16) (constant S1024x1024 .f32 0x00000000#32))
      shapeCasts_S1024x1024_S1x1024x1024 := rfl

section AtIndex

variable (x0 x1 x2 : Vec Ideal S1x1024x1024 .bf16) {Q K V : Fin 4 → Fin 1024 → Fin 1024 → EReal} (b : Fin 4)
  (hQ : ∀ s e, x0 (ix3 (0 : Fin 1) s e) = Q b s e) (hK : ∀ s e, x1 (ix3 (0 : Fin 1) s e) = K b s e)
  (hV : ∀ s e, x2 (ix3 (0 : Fin 1) s e) = V b s e)
include hQ hK

theorem scoreMat_apply (q k : Fin 1024) : scoreMat x0 x1 (ix2 q k) = Cert.Spec.score Q K b q k := by
  unfold scoreMat Cert.Spec.score
  rw [mulf_apply, qk_apply, broadcast_apply]
  refine congrArg₂ (· * ·) (Finset.sum_congr rfl fun d _ => ?_) rfl
  rw [shapeCast_1ab_ab_apply, shapeCast_1ab_ab_apply, hQ, hK]

theorem expMat_apply (q k : Fin 1024) : expMat x0 x1 (ix2 q k) = Cert.Spec.pexp Q K b q k := by
  unfold expMat Cert.Spec.pexp Cert.Spec.smax
  show Ideal.exp (subf (scoreMat x0 x1) _ (ix2 q k)) = _
  rw [subf_apply, broadcastTo_a1_ab_apply, shapeCast_a_a1_apply, rowmax_apply]
  simp only [scoreMat_apply x0 x1 b hQ hK]

theorem weightMat_apply (q k : Fin 1024) : weightMat x0 x1 (ix2 q k) = Cert.Spec.attn Q K b q k := by
  unfold weightMat Cert.Spec.attn Cert.Spec.psum
  rw [truncf_apply, divf_apply, broadcastTo_a1_ab_apply, shapeCast_a_a1_apply, rowsum_apply]
  simp only [expMat_apply x0 x1 b hQ hK]

include hV in
/-- The stored value at (u, q, d) is the attended value of batch b over any three arrays whose batch b the blocks are. -/
theorem k1_pay1_apply (u : Fin 1) (q d : Fin 1024) :
    k1_pay1 x0 x1 x2 (ix3 u q d) = Cert.Spec.zat Q K V b q d := by
  rw [k1_pay1_eq, shapeCast_ab_1ab_apply, pv_apply]
  unfold Cert.Spec.zat
  refine Finset.sum_congr rfl fun k _ => ?_
  rw [weightMat_apply x0 x1 b hQ hK, shapeCast_1ab_ab_apply, hV]

end AtIndex

end Cert.KernelIdeal.HandV

end
-- ==== Proof.Val.K1.lean ====
import proofs.«424417_j2491081031820_3_alg».proof.Proof.KI.Reg1
import proofs.«424417_j2491081031820_3_alg».proof.Proof.Val.K1Pay

noncomputable section

namespace Cert.KernelIdeal.HandV

open Cert.KernelIdeal Cert.KernelIdeal.Gen Cert.KernelIdeal.Hand Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

/-- What the output array ends holding: the attended value over the three column thirds of the array the region finds. -/
abbrev G1 (c : Dev nD) : S4x1024x1024.Idx → EReal := fun i =>
  Cert.Spec.zat (fun b s e => V c main_v7 (ix3 b s ⟨e.val, by omega⟩)) (fun b s e => V c main_v7 (ix3 b s ⟨1024 + e.val, by omega⟩))
    (fun b s e => V c main_v7 (ix3 b s ⟨2048 + e.val, by omega⟩)) (i 0) (i 1) (i 2)

theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 1
    ∧ win1_2.index t (0 : Fin 3) = t.val ∧ win1_2.index t (1 : Fin 3) = 0 ∧ win1_2.index t (2 : Fin 3) = 2
    ∧ win1_3.index t (0 : Fin 3) = t.val ∧ win1_3.index t (1 : Fin 3) = 0 ∧ win1_3.index t (2 : Fin 3) = 0 :=
  (by decide +kernel : ∀ t : Fin grid1.N, _)

/-- A rank-3 index is the one its three coordinates name. -/
theorem ix3_ext {n0 n1 n2 : ℕ} {i : (⟨3, ![n0, n1, n2]⟩ : Shape).Idx} {a : Fin n0} {b : Fin n1} {c : Fin n2}
    (h0 : (i 0).val = a.val) (h1 : (i 1).val = b.val) (h2 : (i 2).val = c.val) : i = ix3 a b c :=
  funext fun x => Fin.ext <| match x with | ⟨0, _⟩ => h0 | ⟨1, _⟩ => h1 | ⟨2, _⟩ => h2

/-- The flushed block at point t is block t of G1: the three input blocks are batch t of the three column thirds. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  have hz : (![0, 0, 0] : Fin 3 → ℕ) = fun _ => 0 := by decide
  rw [View.canon_unit_zero hz]
  simp only [View.ld_unit_zero (S := S1x1024x1024) hz]
  have hN : t.val < 4 := by have h1 : t.val < grid1.N := t.isLt; have h4 : grid1.N = 4 := N_1; omega
  obtain ⟨a0, a1, a2, b0, b1, b2, c0, c1, c2, d0, d1, d2⟩ := idx_facts1 t
  funext j
  obtain ⟨u, q, d, rfl⟩ : ∃ (u : Fin 1) (q d : Fin 1024), j = ix3 u q d := ⟨j 0, j 1, j 2, eq_ix3 j⟩
  show k1_pay1 (iblk1 V c 0 t) (iblk1 V c 1 t) (iblk1 V c 2 t) (ix3 u q d) = G1 V c (((cfg1.win 3).blk t).view.emb (ix3 u q d))
  rw [show ((cfg1.win 3).blk t).view.emb (ix3 u q d) = (ix3 (⟨t.val, hN⟩ : Fin 4) q d : S4x1024x1024.Idx) from ix3_ext
    (by show win1_3.index t (0 : Fin 3) * 1 + 1 * u.val = t.val; omega)
    (by show win1_3.index t (1 : Fin 3) * 1024 + 1 * q.val = q.val; omega)
    (by show win1_3.index t (2 : Fin 3) * 1024 + 1 * d.val = d.val; omega)]
  refine k1_pay1_apply _ _ _ ⟨t.val, hN⟩ (fun s e => ?_) (fun s e => ?_) (fun s e => ?_) u q d
  · show V c main_v7 (((cfg1.win 0).blk t).view.emb (ix3 (0 : Fin 1) s e)) = V c main_v7 _
    exact congrArg _ (ix3_ext (by show win1_0.index t (0 : Fin 3) * 1 + 1 * 0 = t.val; omega)
      (by show win1_0.index t (1 : Fin 3) * 1024 + 1 * s.val = s.val; omega)
      (by show win1_0.index t (2 : Fin 3) * 1024 + 1 * e.val = e.val; omega))
  · show V c main_v7 (((cfg1.win 1).blk t).view.emb (ix3 (0 : Fin 1) s e)) = V c main_v7 _
    exact congrArg _ (ix3_ext (by show win1_1.index t (0 : Fin 3) * 1 + 1 * 0 = t.val; omega)
      (by show win1_1.index t (1 : Fin 3) * 1024 + 1 * s.val = s.val; omega)
      (by show win1_1.index t (2 : Fin 3) * 1024 + 1 * e.val = 1024 + e.val; omega))
  · show V c main_v7 (((cfg1.win 2).blk t).view.emb (ix3 (0 : Fin 1) s e)) = V c main_v7 _
    exact congrArg _ (ix3_ext (by show win1_2.index t (0 : Fin 3) * 1 + 1 * 0 = t.val; omega)
      (by show win1_2.index t (1 : Fin 3) * 1024 + 1 * s.val = s.val; omega)
      (by show win1_2.index t (2 : Fin 3) * 1024 + 1 * e.val = 2048 + e.val; omega))

/-- Every index of the output array is in the block of the point its batch names. -/
theorem cover1 (i : S4x1024x1024.Idx) :
    ∃ t : Fin cfg1.N, (cfg1.win 3).flush t = true ∧ i ∈ ((cfg1.win 3).blk t).view.set := by
  have hi0 : (i 0).val < 4 := (i 0).isLt
  have hi1 : (i 1).val < 1024 := (i 1).isLt
  have hi2 : (i 2).val < 1024 := (i 2).isLt
  have hN : cfg1.N = 4 := N_1
  obtain ⟨t, ht⟩ : ∃ t : Fin cfg1.N, t.val = (i 0).val := ⟨⟨(i 0).val, by omega⟩, rfl⟩
  obtain ⟨-, -, -, -, -, -, -, -, -, e0, e1, e2⟩ := idx_facts1 t
  refine ⟨t, flush1_3 t, ?_⟩
  show i ∈ ((View.whole main_v8).slice (win1_3.rect t)).set
  rw [View.set_slice_whole, Rect.mem_set_unit]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

theorem final1 (c : Dev nD) (b : Fin 4) (q d : Fin 1024) : (dat1 (F := Ideal) V c).arrAt 3 cfg1.N (ix3 b q d)
    = Cert.Spec.zat (fun b s e => V c main_v7 (ix3 b s ⟨e.val, by omega⟩)) (fun b s e => V c main_v7 (ix3 b s ⟨1024 + e.val, by omega⟩)) (fun b s e => V c main_v7 (ix3 b s ⟨2048 + e.val, by omega⟩)) b q d :=
  congrFun ((dat1 (F := Ideal) V c).arrAt_eq_of_cover 3 (G1 V c) (fun t _ => flushed1_eq V c t) cover1) (ix3 b q d)

end Cert.KernelIdeal.HandV

end
-- ==== Proof.Val.K2Pay.lean ====
import proofs.«424417_j2491081031820_3_alg».proof.Proof.Gen.KernelIdeal.Skeleton
import proofs.«424417_j2491081031820_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option synthInstance.maxSize 4096

noncomputable section

namespace Cert.KernelIdeal.HandV

open Cert.KernelIdeal Cert.KernelIdeal.Gen Idealize.ShloMosaic Idealize.ShloMosaic.ValueIdx

theorem k2_mm {M K N : ℕ} {φ₁ φ₂ : FTy} (D : DotDims ⟨2, ![M, K]⟩ ⟨2, ![K, N]⟩ ⟨2, ![M, N]⟩) (hD : D = DotDims.plain M K N)
    (A : FVec Ideal ⟨2, ![M, K]⟩ φ₁) (B : FVec Ideal ⟨2, ![K, N]⟩ φ₂) (p : Fin M) (e : Fin N) :
    matmul D none A B (constant (F := Ideal) ⟨2, ![M, N]⟩ .f32 0x00000000#32) (ix2 p e) = ∑ d : Fin K, A (ix2 p d) * B (ix2 d e) := by
  subst hD
  show FloatOps.matmul _ none A B _ (ix2 p e) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  rw [show (DotDims.plain M K N).lhsIdx (ix2 p e) ((contrEquiv1 _ K rfl rfl).symm c) = ix2 p c from Shape.idx_ext₂ rfl c2,
    show (DotDims.plain M K N).rhsIdx (ix2 p e) ((contrEquiv1 _ K rfl rfl).symm c) = ix2 c e from Shape.idx_ext₂ c2 rfl]

abbrev k2_row {a b : ℕ} {φ : FTy} (x : FVec Ideal ⟨2, ![a, b]⟩ φ) (p : Fin a) : Fin b → Ideal φ := fun d => x (ix2 p d)

abbrev k2_tr {a b : ℕ} {φ : FTy} (w : FVec Ideal ⟨2, ![a, b]⟩ φ) : Fin b → Fin a → Ideal φ := fun e d => w (ix2 d e)

abbrev k2_vec {b : ℕ} {φ : FTy} (v : FVec Ideal ⟨2, ![1, b]⟩ φ) : Fin b → Ideal φ := fun e => v (ix2 (0 : Fin 1) e)

theorem k2_rowsum (X : FVec Ideal S256x1024 .f32) (p : Fin 256) :
    multiReduction (F := Ideal) .add [1] S256 X 0x00000000#32 reduces_S256x1024_S256 (.inl rfl) rfl (ix1 p)
      = ∑ d : Fin 1024, X (ix2 p d) :=
  (Ideal.multiReduction_add_single X 0x00000000#32 reduces_S256x1024_S256 (.inl rfl) rfl (ix1 p)).trans
    (Finset.sum_congr rfl fun d _ => congrArg X (Shape.idx_ext₂ rfl rfl))

theorem k2_colcast (u : FVec Ideal S256 .f32) (p : Fin 256) (c : Fin 1) :
    shapeCast S256x1 u shapeCasts_S256_S256x1 (ix2 p c) = u (ix1 p) := by
  refine shapeCast_apply u shapeCasts_S256_S256x1 (ix2 p c) (ix1 p) ?_
  rw [Shape.rowMajor_val_one, Shape.rowMajor_val_two]
  show p.val = p.val * 1 + c.val
  omega

theorem k2_colbcast (w : FVec Ideal S256x1 .f32) (p : Fin 256) (e : Fin 1024) :
    broadcastTo S256x1024 w broadcasts_S256x1_S256x1024 (ix2 p e) = w (ix2 p (0 : Fin 1)) := by
  refine broadcastTo_apply w broadcasts_S256x1_S256x1024 (ix2 p e) (ix2 p (0 : Fin 1)) fun ax => ?_
  match ax with
  | ⟨0, _⟩ => rfl
  | ⟨1, _⟩ => rfl

def k2_mean (X : FVec Ideal S256x1024 .f32) : FVec Ideal S256x1 .f32 :=
  divf (shapeCast S256x1 (multiReduction .add [1] S256 X 0x00000000#32 reduces_S256x1024_S256 (.inl rfl) rfl) shapeCasts_S256_S256x1)
    (broadcast S256x1 (Scalar.ofBits .f32 0x44800000#32))

theorem k2_mean_apply (X : FVec Ideal S256x1024 .f32) (p : Fin 256) (c : Fin 1) :
    k2_mean X (ix2 p c) = Ideal.div (∑ d : Fin 1024, X (ix2 p d)) Cert.Spec.cN := by
  unfold k2_mean
  rw [divf_apply, k2_colcast, k2_rowsum]
  rfl

def k2_ctr (X : FVec Ideal S256x1024 .f32) : FVec Ideal S256x1024 .f32 :=
  subf X (broadcastTo S256x1024 (k2_mean X) broadcasts_S256x1_S256x1024)

theorem k2_ctr_apply (X : FVec Ideal S256x1024 .f32) (p : Fin 256) (e : Fin 1024) :
    k2_ctr X (ix2 p e) = X (ix2 p e) - Ideal.div (∑ d : Fin 1024, X (ix2 p d)) Cert.Spec.cN := by
  unfold k2_ctr
  rw [subf_apply, k2_colbcast, k2_mean_apply]

def k2_rstd (X : FVec Ideal S256x1024 .f32) : FVec Ideal S256x1 .f32 :=
  rsqrt (addf (k2_mean (mulf (k2_ctr X) (k2_ctr X))) (broadcast S256x1 (Scalar.ofBits .f32 0x3727C5AC#32)))

theorem k2_rstd_apply (X : FVec Ideal S256x1024 .f32) (p : Fin 256) (c : Fin 1) :
    k2_rstd X (ix2 p c)
      = Ideal.rsqrt (Ideal.div (∑ d : Fin 1024, (X (ix2 p d) - Ideal.div (∑ d' : Fin 1024, X (ix2 p d')) Cert.Spec.cN)
            * (X (ix2 p d) - Ideal.div (∑ d' : Fin 1024, X (ix2 p d')) Cert.Spec.cN)) Cert.Spec.cN + Cert.Spec.cEps) := by
  unfold k2_rstd
  show Ideal.rsqrt (k2_mean (mulf (k2_ctr X) (k2_ctr X)) (ix2 p c) + Cert.Spec.cEps) = _
  rw [k2_mean_apply]
  simp only [mulf_apply, k2_ctr_apply]

def k2_ln (X : FVec Ideal S256x1024 .f32) (g be : FVec Ideal S1x1024 .f32) : FVec Ideal S256x1024 .f32 :=
  addf
    (mulf (mulf (k2_ctr X) (broadcastTo S256x1024 (k2_rstd X) broadcasts_S256x1_S256x1024))
      (broadcastTo S256x1024 (shapeCast S1x1024 g shapeCasts_S1x1024_S1x1024) broadcasts_S1x1024_S256x1024))
    (broadcastTo S256x1024 (shapeCast S1x1024 be shapeCasts_S1x1024_S1x1024) broadcasts_S1x1024_S256x1024)

theorem k2_ln_apply (X : FVec Ideal S256x1024 .f32) (g be : FVec Ideal S1x1024 .f32) (p : Fin 256) (e : Fin 1024) :
    k2_ln X g be (ix2 p e)
      = Cert.Spec.ln (k2_row X p) (k2_vec g) (k2_vec be) e := by
  unfold k2_ln Cert.Spec.ln
  rw [addf_apply, mulf_apply, mulf_apply, k2_ctr_apply, k2_colbcast, k2_rstd_apply,
    broadcastTo_1b_ab_apply, broadcastTo_1b_ab_apply, shapeCast_self, shapeCast_self]

section Post

variable (x0 x1 : FVec Ideal S256x1024 .f32) (w3 : FVec Ideal S1024x1024 .bf16) (b4 g5 be6 : FVec Ideal S1x1024 .f32)
  (w7 : FVec Ideal S1024x4096 .bf16) (b8 : FVec Ideal S1x4096 .f32) (w9 : FVec Ideal S4096x1024 .bf16)
  (b10 g11 be12 : FVec Ideal S1x1024 .f32)

def k2_xpre : FVec Ideal S256x1024 .f32 :=
  addf (shapeCast S256x1024 x1 shapeCasts_S256x1024_S256x1024)
    (addf
      (matmul dot_S256x1024_S1024x1024_S256x1024_1_0_0_1_n_n none
        (truncf .bf16 (shapeCast S256x1024 x0 shapeCasts_S256x1024_S256x1024) bitsLt_bf16_f32)
        (shapeCast S1024x1024 w3 shapeCasts_S1024x1024_S1024x1024) (constant S256x1024 .f32 0x00000000#32))
      (broadcastTo S256x1024 (shapeCast S1x1024 b4 shapeCasts_S1x1024_S1x1024) broadcasts_S1x1024_S256x1024))

theorem k2_xpre_apply (p : Fin 256) (e : Fin 1024) :
    k2_xpre x0 x1 w3 b4 (ix2 p e)
      = Cert.Spec.xpre (k2_row x0 p) (k2_row x1 p) (k2_tr w3) (k2_vec b4) e := by
  unfold k2_xpre Cert.Spec.xpre Cert.Spec.lin
  rw [addf_apply, addf_apply, k2_mm dot_S256x1024_S1024x1024_S256x1024_1_0_0_1_n_n rfl, broadcastTo_1b_ab_apply]
  simp +unfoldPartialApp only [shapeCast_self, truncf_apply, k2_row, k2_tr, k2_vec]

def k2_x1 : FVec Ideal S256x1024 .f32 := k2_ln (k2_xpre x0 x1 w3 b4) g5 be6

theorem k2_x1_apply (p : Fin 256) (e : Fin 1024) :
    k2_x1 x0 x1 w3 b4 g5 be6 (ix2 p e)
      = Cert.Spec.x1 (k2_row x0 p) (k2_row x1 p) (k2_tr w3) (k2_vec b4) (k2_vec g5) (k2_vec be6) e := by
  unfold k2_x1 Cert.Spec.x1
  rw [k2_ln_apply]
  simp +unfoldPartialApp only [k2_row, k2_xpre_apply]

def k2_hid : FVec Ideal S256x4096 .f32 :=
  maximumf
    (addf
      (matmul dot_S256x1024_S1024x4096_S256x4096_1_0_0_1_n_n none
        (truncf .bf16 (k2_x1 x0 x1 w3 b4 g5 be6) bitsLt_bf16_f32)
        (shapeCast S1024x4096 w7 shapeCasts_S1024x4096_S1024x4096) (constant S256x4096 .f32 0x00000000#32))
      (broadcastTo S256x4096 (shapeCast S1x4096 b8 shapeCasts_S1x4096_S1x4096) broadcasts_S1x4096_S256x4096))
    (broadcast S256x4096 (Scalar.ofBits .f32 0x00000000#32))

theorem k2_hid_apply (p : Fin 256) (h : Fin 4096) :
    k2_hid x0 x1 w3 b4 g5 be6 w7 b8 (ix2 p h)
      = Cert.Spec.hid (k2_row x0 p) (k2_row x1 p) (k2_tr w3) (k2_vec b4) (k2_vec g5) (k2_vec be6)
        (k2_tr w7) (k2_vec b8) h := by
  unfold k2_hid Cert.Spec.hid Cert.Spec.lin
  rw [maximumf_apply, addf_apply, k2_mm dot_S256x1024_S1024x4096_S256x4096_1_0_0_1_n_n rfl, broadcastTo_1b_ab_apply]
  simp +unfoldPartialApp only [shapeCast_self, truncf_apply, k2_x1_apply, k2_row, k2_tr, k2_vec]
  rfl

def k2_ffn : FVec Ideal S256x1024 .f32 :=
  addf
    (matmul dot_S256x4096_S4096x1024_S256x1024_1_0_0_1_n_n none
      (truncf .bf16 (k2_hid x0 x1 w3 b4 g5 be6 w7 b8) bitsLt_bf16_f32)
      (shapeCast S4096x1024 w9 shapeCasts_S4096x1024_S4096x1024) (constant S256x1024 .f32 0x00000000#32))
    (broadcastTo S256x1024 (shapeCast S1x1024 b10 shapeCasts_S1x1024_S1x1024) broadcasts_S1x1024_S256x1024)

theorem k2_ffn_apply (p : Fin 256) (e : Fin 1024) :
    k2_ffn x0 x1 w3 b4 g5 be6 w7 b8 w9 b10 (ix2 p e)
      = Cert.Spec.ffn (k2_row x0 p) (k2_row x1 p) (k2_tr w3) (k2_vec b4) (k2_vec g5) (k2_vec be6)
        (k2_tr w7) (k2_vec b8) (k2_tr w9) (k2_vec b10) e := by
  unfold k2_ffn Cert.Spec.ffn Cert.Spec.lin
  rw [addf_apply, k2_mm dot_S256x4096_S4096x1024_S256x1024_1_0_0_1_n_n rfl, broadcastTo_1b_ab_apply]
  simp +unfoldPartialApp only [shapeCast_self, truncf_apply, k2_hid_apply, k2_row, k2_tr, k2_vec]

def k2_out : FVec Ideal S256x1024 .f32 :=
  k2_ln (addf (k2_x1 x0 x1 w3 b4 g5 be6) (k2_ffn x0 x1 w3 b4 g5 be6 w7 b8 w9 b10)) g11 be12

theorem k2_pay3_eq :
    k2_pay3 (F := Ideal) (k2_pay1 x0 w3 b4 x1 g5 be6) (k2_pay2 x0 w3 b4 x1 g5 be6) w7 b8 w9 b10 g11 be12
      = truncf .bf16 (k2_out x0 x1 w3 b4 g5 be6 w7 b8 w9 b10 g11 be12) bitsLt_bf16_f32 := rfl

theorem k2_pay_apply (p : Fin 256) (e : Fin 1024) :
    k2_pay3 (F := Ideal) (k2_pay1 x0 w3 b4 x1 g5 be6) (k2_pay2 x0 w3 b4 x1 g5 be6) w7 b8 w9 b10 g11 be12 (ix2 p e)
      = Cert.Spec.outp (fun d => x0 (ix2 p d)) (fun d => x1 (ix2 p d)) (fun e d => w3 (ix2 d e)) (fun e => b4 (ix2 (0 : Fin 1) e)) (fun e => g5 (ix2 (0 : Fin 1) e)) (fun e => be6 (ix2 (0 : Fin 1) e))
        (fun h d => w7 (ix2 d h)) (fun h => b8 (ix2 (0 : Fin 1) h)) (fun e h => w9 (ix2 h e)) (fun e => b10 (ix2 (0 : Fin 1) e)) (fun e => g11 (ix2 (0 : Fin 1) e)) (fun e => be12 (ix2 (0 : Fin 1) e)) e := by
  rw [k2_pay3_eq, truncf_apply]
  unfold k2_out Cert.Spec.outp
  rw [k2_ln_apply]
  simp +unfoldPartialApp only [addf_apply, k2_x1_apply, k2_ffn_apply, k2_row, k2_tr, k2_vec]

end Post

end Cert.KernelIdeal.HandV

end
-- ==== Proof.Val.K2.lean ====
import proofs.«424417_j2491081031820_3_alg».proof.Proof.KI.Reg2
import proofs.«424417_j2491081031820_3_alg».proof.Proof.Val.K2Pay
import Idealize.ShloMosaic.Lib.Pipeline.Value

set_option maxRecDepth 16384

noncomputable section

namespace Cert.KernelIdeal.HandV

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

theorem k2_hz : (![0, 0] : Fin 2 → Nat) = fun _ => 0 := funext fun a => by fin_cases a <;> rfl

theorem k2_idx : ∀ (w : Fin cfg2.W) (t : Fin cfg2.N) (a : Fin (cfg2.win w).shape.rank),
    (cfg2.win w).index t a * (cfg2.win w).size a = if a.val = 0 ∧ (w.val < 2 ∨ w.val = 12) then 256 * t.val else 0 :=
  (by decide +kernel : ∀ (w : Fin 13) (t : Fin grid2.N) (a : Fin (win2 w).shape.rank), _)

theorem k2_emb0 (w : Fin cfg2.W) (t : Fin cfg2.N) (y : ((cfg2.win w).xblock (cfg2.grid.coords t)).Idx) (a : Fin (cfg2.win w).shape.rank)
    (h : ¬(a.val = 0 ∧ (w.val < 2 ∨ w.val = 12)) := by decide) : (((cfg2.win w).rect t).emb y a : ℕ) = y a := by
  rw [Pipeline.Window.rect_emb_val, k2_idx, if_neg h, Nat.zero_add]

theorem k2_embr (w : Fin cfg2.W) (t : Fin cfg2.N) (y : ((cfg2.win w).xblock (cfg2.grid.coords t)).Idx) (a : Fin (cfg2.win w).shape.rank)
    (h : a.val = 0 ∧ (w.val < 2 ∨ w.val = 12) := by decide) : (((cfg2.win w).rect t).emb y a : ℕ) = 256 * t.val + y a := by
  rw [Pipeline.Window.rect_emb_val, k2_idx, if_pos h]

theorem k2_b0 (c : Dev nD) (t : Fin cfg2.N) (p : Fin 256) (R : Fin 4096) (hR : 256 * t.val + p.val = R.val) :
    (fun d => iblk2 V c 0 t (ix2 p d)) = fun d => V c main_v10 (ix2 R d) :=
  funext fun _ => congrArg (V c main_v10) (Shape.idx_ext₂ ((k2_embr 0 t _ 0).trans hR) (k2_emb0 0 t _ 1))

theorem k2_b1 (c : Dev nD) (t : Fin cfg2.N) (p : Fin 256) (R : Fin 4096) (hR : 256 * t.val + p.val = R.val) :
    (fun d => iblk2 V c 1 t (ix2 p d)) = fun d => V c main_v1 (ix2 R d) :=
  funext fun _ => congrArg (V c main_v1) (Shape.idx_ext₂ ((k2_embr 1 t _ 0).trans hR) (k2_emb0 1 t _ 1))

theorem k2_b2 (c : Dev nD) (t : Fin cfg2.N) : iblk2 V c 2 t = V c main_v12 :=
  funext fun _ => congrArg (V c main_v12) (Shape.idx_ext₂ (k2_emb0 2 t _ 0) (k2_emb0 2 t _ 1))

theorem k2_b3 (c : Dev nD) (t : Fin cfg2.N) : iblk2 V c 3 t = V c main_v17 :=
  funext fun _ => congrArg (V c main_v17) (Shape.idx_ext₂ (k2_emb0 3 t _ 0) (k2_emb0 3 t _ 1))

theorem k2_b4 (c : Dev nD) (t : Fin cfg2.N) : iblk2 V c 4 t = V c main_v20 :=
  funext fun _ => congrArg (V c main_v20) (Shape.idx_ext₂ (k2_emb0 4 t _ 0) (k2_emb0 4 t _ 1))

theorem k2_b5 (c : Dev nD) (t : Fin cfg2.N) : iblk2 V c 5 t = V c main_v21 :=
  funext fun _ => congrArg (V c main_v21) (Shape.idx_ext₂ (k2_emb0 5 t _ 0) (k2_emb0 5 t _ 1))

theorem k2_b6 (c : Dev nD) (t : Fin cfg2.N) : iblk2 V c 6 t = V c main_v14 :=
  funext fun _ => congrArg (V c main_v14) (Shape.idx_ext₂ (k2_emb0 6 t _ 0) (k2_emb0 6 t _ 1))

theorem k2_b7 (c : Dev nD) (t : Fin cfg2.N) : iblk2 V c 7 t = V c main_v18 :=
  funext fun _ => congrArg (V c main_v18) (Shape.idx_ext₂ (k2_emb0 7 t _ 0) (k2_emb0 7 t _ 1))

theorem k2_b8 (c : Dev nD) (t : Fin cfg2.N) : iblk2 V c 8 t = V c main_v16 :=
  funext fun _ => congrArg (V c main_v16) (Shape.idx_ext₂ (k2_emb0 8 t _ 0) (k2_emb0 8 t _ 1))

theorem k2_b9 (c : Dev nD) (t : Fin cfg2.N) : iblk2 V c 9 t = V c main_v19 :=
  funext fun _ => congrArg (V c main_v19) (Shape.idx_ext₂ (k2_emb0 9 t _ 0) (k2_emb0 9 t _ 1))

theorem k2_b10 (c : Dev nD) (t : Fin cfg2.N) : iblk2 V c 10 t = V c main_v22 :=
  funext fun _ => congrArg (V c main_v22) (Shape.idx_ext₂ (k2_emb0 10 t _ 0) (k2_emb0 10 t _ 1))

theorem k2_b11 (c : Dev nD) (t : Fin cfg2.N) : iblk2 V c 11 t = V c main_v23 :=
  funext fun _ => congrArg (V c main_v23) (Shape.idx_ext₂ (k2_emb0 11 t _ 0) (k2_emb0 11 t _ 1))

def k2_G (c : Dev nD) : S4096x1024.Idx → EReal := fun i =>
  Cert.Spec.outp (fun d => V c main_v10 (ix2 (⟨(i 0).val, idx2_lt0 i⟩ : Fin 4096) d)) (fun d => V c main_v1 (ix2 (⟨(i 0).val, idx2_lt0 i⟩ : Fin 4096) d))
      (fun e d => V c main_v12 (ix2 d e)) (fun e => V c main_v17 (ix2 (0 : Fin 1) e))
      (fun e => V c main_v20 (ix2 (0 : Fin 1) e)) (fun e => V c main_v21 (ix2 (0 : Fin 1) e))
      (fun h d => V c main_v14 (ix2 d h)) (fun h => V c main_v18 (ix2 (0 : Fin 1) h))
      (fun e h => V c main_v16 (ix2 h e)) (fun e => V c main_v19 (ix2 (0 : Fin 1) e))
      (fun e => V c main_v22 (ix2 (0 : Fin 1) e)) (fun e => V c main_v23 (ix2 (0 : Fin 1) e)) (⟨(i 1).val, idx2_lt1 i⟩ : Fin 1024)

theorem k2_flushed_eq (c : Dev nD) (t : Fin cfg2.N) :
    (dat2 (F := Ideal) V c).flushed 12 t = ((cfg2.win 12).blk t).view.read (Elt Ideal) (k2_G V c) := by
  show (cfg2.win 12).cut (grid2.coords t) ((dat2 (F := Ideal) V c).after 12 t) = _
  rw [after2_12]
  unfold out2_12
  rw [View.canon_unit_zero k2_hz]
  simp only [View.ld_unit_zero (S := S256x1024) k2_hz, View.ld_unit_zero (S := S1024x1024) k2_hz,
    View.ld_unit_zero (S := S1x1024) k2_hz, View.ld_unit_zero (S := S1024x4096) k2_hz,
    View.ld_unit_zero (S := S1x4096) k2_hz, View.ld_unit_zero (S := S4096x1024) k2_hz]
  funext j
  obtain ⟨p, e, rfl⟩ : ∃ (p : Fin 256) (e : Fin 1024), j = ix2 p e := ⟨j 0, j 1, eq_ix2 j⟩
  have ht : t.val < 16 := N_2 ▸ t.isLt
  have hemb : ((cfg2.win 12).blk t).view.emb (ix2 p e) = ix2 (⟨256 * t.val + p.val, by omega⟩ : Fin 4096) e :=
    Shape.idx_ext₂ (k2_embr 12 t _ 0) (k2_emb0 12 t _ 1)
  show k2_pay3 (F := Ideal) _ _ _ _ _ _ _ _ (ix2 p e) = k2_G V c (((cfg2.win 12).blk t).view.emb (ix2 p e))
  rw [hemb]
  refine (k2_pay_apply _ _ _ _ _ _ _ _ _ _ _ _ p e).trans ?_
  rw [k2_b0 V c t p ⟨256 * t.val + p.val, by omega⟩ rfl, k2_b1 V c t p ⟨256 * t.val + p.val, by omega⟩ rfl, k2_b2 V c t, k2_b3 V c t, k2_b4 V c t, k2_b5 V c t, k2_b6 V c t, k2_b7 V c t, k2_b8 V c t, k2_b9 V c t, k2_b10 V c t, k2_b11 V c t]
  rfl

theorem k2_cover (i : S4096x1024.Idx) :
    ∃ t : Fin cfg2.N, (cfg2.win 12).flush t = true ∧ i ∈ ((cfg2.win 12).blk t).view.set := by
  have hi0 : (i 0).val < 4096 := (i 0).isLt
  have hq : (i 0).val / 256 < cfg2.N := by rw [show cfg2.N = 16 from N_2]; omega
  have h : ((cfg2.win 12).blk ⟨(i 0).val / 256, hq⟩).view.emb (ix2 ⟨(i 0).val % 256, Nat.mod_lt _ (by decide)⟩ (i 1)) = i :=
    Shape.idx_ext₂ ((k2_embr 12 _ _ 0).trans (Nat.div_add_mod _ 256)) (k2_emb0 12 _ _ 1)
  exact ⟨_, flush2_12 _, h ▸ View.emb_mem_set _ _⟩

theorem final2 (c : Dev nD) (r : Fin 4096) (e : Fin 1024) : (dat2 (F := Ideal) V c).arrAt 12 cfg2.N (ix2 r e)
      = Cert.Spec.outp (fun d => V c main_v10 (ix2 r d)) (fun d => V c main_v1 (ix2 r d)) (fun e d => V c main_v12 (ix2 d e)) (fun e => V c main_v17 (ix2 (0 : Fin 1) e)) (fun e => V c main_v20 (ix2 (0 : Fin 1) e)) (fun e => V c main_v21 (ix2 (0 : Fin 1) e))
          (fun h d => V c main_v14 (ix2 d h)) (fun h => V c main_v18 (ix2 (0 : Fin 1) h)) (fun e h => V c main_v16 (ix2 h e)) (fun e => V c main_v19 (ix2 (0 : Fin 1) e)) (fun e => V c main_v22 (ix2 (0 : Fin 1) e)) (fun e => V c main_v23 (ix2 (0 : Fin 1) e)) e :=
  (congrFun ((dat2 (F := Ideal) V c).arrAt_eq_of_cover 12 (k2_G V c) (fun t _ => k2_flushed_eq V c t) k2_cover) (ix2 r e)).trans rfl

end Cert.KernelIdeal.HandV

end
-- ==== Proof.Val.K3Pay.lean ====
import proofs.«424417_j2491081031820_3_alg».proof.Proof.Val.K0Pay

noncomputable section

namespace Cert.KernelIdeal.HandV

open Cert.KernelIdeal Cert.KernelIdeal.Gen Idealize.ShloMosaic ValueIdx

/-- Entry (p, j) of the stored block is row p of the first block against row j of the second, plus entry j of the third. -/
theorem k3_pay1_apply (x0 : Vec Ideal S512x1024 .bf16) (x1 : Vec Ideal S1280x1024 .f32) (x2 : Vec Ideal S1x1280 .f32)
    (p : Fin 512) (j : Fin 1280) :
    k3_pay1 (F := Ideal) x0 x1 x2 (ix2 p j)
      = Cert.Spec.lin (fun d : Fin 1024 => x0 (ix2 p d)) (fun (j : Fin 1280) (d : Fin 1024) => x1 (ix2 j d)) j
        + x2 (ix2 (0 : Fin 1) j) := by
  unfold k3_pay1
  rw [addf_apply, broadcastTo_1b_ab_apply, shapeCast_self, shapeCast_self]
  exact congrArg (· + x2 (ix2 (0 : Fin 1) j)) (matmul_zero_apply (φ₁ := .bf16) (φ₂ := .bf16) _ 1024 rfl rfl _ _ _ (ix2 p ·) (ix2 j ·)
    (fun _ => Shape.idx_ext₂ rfl rfl) fun _ => Shape.idx_ext₂ rfl rfl)

end Cert.KernelIdeal.HandV

end
-- ==== Proof.Val.K3.lean ====
import proofs.«424417_j2491081031820_3_alg».proof.Proof.KI.Reg3
import proofs.«424417_j2491081031820_3_alg».proof.Proof.Val.K3Pay

noncomputable section

namespace Cert.KernelIdeal.HandV

open Cert.KernelIdeal Cert.KernelIdeal.Gen Cert.KernelIdeal.Hand Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

/-- The logits as one function of the arrays the region finds: row r of the first against row v of the second, plus entry v of the third. -/
def logit3 (c : Dev nD) : S4096x32000.Idx → EReal := fun i =>
  Cert.Spec.dec (fun d : Fin 1024 => V c main_v24 (ix2 (i 0 : Fin 4096) d))
    (fun (v : Fin 32000) (d : Fin 1024) => V c main_arg15 (ix2 v d))
    (fun v : Fin 32000 => V c main_v25 (ix2 (0 : Fin 1) v)) (i 1 : Fin 32000)

theorem index_facts3 : ∀ t : Fin cfg3.N,
    win3_0.index t (0 : Fin 2) = win3_3.index t (0 : Fin 2) ∧ win3_0.index t (1 : Fin 2) = 0
    ∧ win3_1.index t (0 : Fin 2) = win3_3.index t (1 : Fin 2) ∧ win3_1.index t (1 : Fin 2) = 0
    ∧ win3_2.index t (0 : Fin 2) = 0 ∧ win3_2.index t (1 : Fin 2) = win3_3.index t (1 : Fin 2) :=
  (by decide +kernel : ∀ t : Fin grid3.N, _)

/-- Every one of the 8 × 25 output blocks is some grid point's. -/
theorem index_onto3 : ∀ (q0 : Fin 8) (q1 : Fin 25), ∃ t : Fin cfg3.N, win3_3.index t = ![q0.val, q1.val] :=
  (by decide +kernel : ∀ (q0 : Fin 8) (q1 : Fin 25), ∃ t : Fin grid3.N, win3_3.index t = ![q0.val, q1.val])

/-- The flushed block at point t is block t of the logits. -/
theorem flushed3_eq (c : Dev nD) (t : Fin cfg3.N) :
    (dat3 (F := Ideal) V c).flushed 3 t = ((cfg3.win 3).blk t).view.read (Elt Ideal) (logit3 V c) := by
  show (cfg3.win 3).cut (grid3.coords t) ((dat3 (F := Ideal) V c).after 3 t) = _
  rw [after3_3]
  unfold out3_3
  have hz : (![0, 0] : Fin 2 → ℕ) = fun _ => 0 := by decide
  rw [View.canon_unit_zero hz]
  simp only [View.ld_unit_zero (S := S512x1024) hz, View.ld_unit_zero (S := S1280x1024) hz, View.ld_unit_zero (S := S1x1280) hz]
  obtain ⟨e00, e01, e10, e11, e20, e21⟩ := index_facts3 t
  funext y
  obtain ⟨p, j, rfl⟩ : ∃ (p : Fin 512) (j : Fin 1280), y = ix2 p j := ⟨y 0, y 1, eq_ix2 y⟩
  show k3_pay1 (F := Ideal) (iblk3 V c 0 t) (iblk3 V c 1 t) (iblk3 V c 2 t) (ix2 p j)
    = logit3 V c (((cfg3.win 3).blk t).view.emb (ix2 p j))
  rw [k3_pay1_apply]
  unfold logit3 Cert.Spec.dec Cert.Spec.lin
  refine congrArg₂ (fun a b : EReal => a + b) (Finset.sum_congr rfl fun d _ => congrArg₂ (fun a b : EReal => a * b) ?_ ?_) ?_
  · show V c main_v24 (((cfg3.win 0).blk t).view.emb (ix2 p d)) = V c main_v24 _
    refine congrArg _ (Shape.idx_ext₂ ?_ ?_)
    · show win3_0.index t (0 : Fin 2) * 512 + 1 * p.val = win3_3.index t (0 : Fin 2) * 512 + 1 * p.val; omega
    · show win3_0.index t (1 : Fin 2) * 1024 + 1 * d.val = d.val; omega
  · show V c main_arg15 (((cfg3.win 1).blk t).view.emb (ix2 j d)) = V c main_arg15 _
    refine congrArg _ (Shape.idx_ext₂ ?_ ?_)
    · show win3_1.index t (0 : Fin 2) * 1280 + 1 * j.val = win3_3.index t (1 : Fin 2) * 1280 + 1 * j.val; omega
    · show win3_1.index t (1 : Fin 2) * 1024 + 1 * d.val = d.val; omega
  · show V c main_v25 (((cfg3.win 2).blk t).view.emb (ix2 (0 : Fin 1) j)) = V c main_v25 _
    refine congrArg _ (Shape.idx_ext₂ ?_ ?_)
    · show win3_2.index t (0 : Fin 2) * 1 + 1 * 0 = 0; omega
    · show win3_2.index t (1 : Fin 2) * 1280 + 1 * j.val = win3_3.index t (1 : Fin 2) * 1280 + 1 * j.val; omega

/-- The output blocks tile the array: the point whose output block is (r / 512, v / 1280) covers (r, v). -/
theorem cover3 (i : S4096x32000.Idx) :
    ∃ t : Fin cfg3.N, (cfg3.win 3).flush t = true ∧ i ∈ ((cfg3.win 3).blk t).view.set := by
  have hi0 := idx2_lt0 i
  have hi1 := idx2_lt1 i
  obtain ⟨t, ht⟩ := index_onto3 ⟨(i 0).val / 512, by omega⟩ ⟨(i 1).val / 1280, by omega⟩
  have q0 : win3_3.index t (0 : Fin 2) = (i 0).val / 512 := congrFun ht 0
  have q1 : win3_3.index t (1 : Fin 2) = (i 1).val / 1280 := congrFun ht 1
  refine ⟨t, flush3_3 t, ?_⟩
  show i ∈ ((View.whole main_v26).slice (win3_3.rect t)).set
  rw [View.set_slice_whole, Rect.mem_set_unit]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 1280 ≤ (i 1).val ∧ (i 1).val < win3_3.index t (1 : Fin 2) * 1280 + 1280; omega

theorem final3 (c : Dev nD) (r : Fin 4096) (v : Fin 32000) : (dat3 (F := Ideal) V c).arrAt 3 cfg3.N (ix2 r v)
      = Cert.Spec.dec (fun d : Fin 1024 => V c main_v24 (ix2 r d)) (fun (v : Fin 32000) (d : Fin 1024) => V c main_arg15 (ix2 v d)) (fun v : Fin 32000 => V c main_v25 (ix2 (0 : Fin 1) v)) v :=
  congrFun ((dat3 (F := Ideal) V c).arrAt_eq_of_cover 3 (logit3 V c) (fun t _ => flushed3_eq V c t) cover3) (ix2 r v)

end Cert.KernelIdeal.HandV

end
-- ==== Proof.Val.KGlue.lean ====
import proofs.«424417_j2491081031820_3_alg».proof.Proof.Gen.KernelIdeal.Regions
import proofs.«424417_j2491081031820_3_alg».proof.Proof.Spec
import Idealize.ShloMosaic.Lib.ValueLayout
import Idealize.ShloMosaic.Lib.ValueIdx
import Idealize.ShloMosaic.Lib.Pipeline.Value
import Idealize.ShloMosaic.Lib.StableHlo.Run

noncomputable section

namespace Cert.KernelIdeal.HandV

open Cert.KernelIdeal Cert.KernelIdeal.Gen Idealize.ShloMosaic Idealize.ShloMosaic.TcCoe Idealize.ShloMosaic.ValueIdx
open Idealize.ShloMosaic.StableHlo Cert.Spec

section Layout

variable {α : Type}

/-- Row `r` of the `[1024, 4, D]` array flattened to `[4096, D]` is position `r / 4` of batch `r % 4`. -/
theorem reshape_rows_apply (x : S1024x4x1024.Idx → α) (h : S1024x4x1024.ShapeCasts S4096x1024) (r : Fin 4096) (d : Fin 1024) :
    shapeCast S4096x1024 x h (ix2 r d) = x (ix3 (posOf r) (batchOf r) d) :=
  shapeCast_apply x h _ _ (by
    rw [Shape.rowMajor_val_three, Shape.rowMajor_val_two]
    show ((r.val / 4) * 4 + r.val % 4) * 1024 + d.val = r.val * 1024 + d.val
    omega)

/-- Entry `(s, b, j)` of the `[4096, J]` array split to `[1024, 4, J]` is row `4 s + b`. -/
theorem split_rows_apply (x : S4096x3072.Idx → α) (h : S4096x3072.ShapeCasts S1024x4x3072) (s : Fin 1024) (b : Fin 4) (j : Fin 3072) :
    shapeCast S1024x4x3072 x h (ix3 s b j) = x (ix2 (rowOf s b) j) :=
  shapeCast_apply x h _ _ (by
    rw [Shape.rowMajor_val_three, Shape.rowMajor_val_two]
    show (4 * s.val + b.val) * 3072 + j.val = (s.val * 4 + b.val) * 3072 + j.val
    omega)

/-- Swapping the first two of three axes swaps the first two coordinates. -/
theorem swap01_apply {n0 n1 n2 : ℕ} (x : (⟨3, ![n0, n1, n2]⟩ : Shape).Idx → α)
    (h : (⟨3, ![n0, n1, n2]⟩ : Shape).Transposes [1, 0, 2] ⟨3, ![n1, n0, n2]⟩) (b : Fin n1) (s : Fin n0) (j : Fin n2) :
    transpose ⟨3, ![n1, n0, n2]⟩ [1, 0, 2] x h (ix3 b s j) = x (ix3 s b j) :=
  transpose_apply _ x h _ _ fun a => match a with | ⟨0, _⟩ => rfl | ⟨1, _⟩ => rfl | ⟨2, _⟩ => rfl

/-- Three square matrices stacked along the rows, then transposed: column `1024 k + e` is row `e` of the `k`-th matrix. -/
theorem stack3_transpose (f : Fin 3 → S1024x1024.Idx → α)
    (h : Shape.Concatenates [S1024x1024, S1024x1024, S1024x1024] S3072x1024 0) (h' : S3072x1024.Transposes [1, 0] S1024x3072)
    (k : Fin 3) (d e : Fin 1024) (j : Fin 3072) (hj : j.val = 1024 * k.val + e.val) :
    transpose S1024x3072 [1, 0] (concatenate S3072x1024 0 [⟨S1024x1024, f 0⟩, ⟨S1024x1024, f 1⟩, ⟨S1024x1024, f 2⟩] h) h' (ix2 d j)
      = f k (ix2 e d) := by
  rw [transpose_ix2_apply]
  exact concatenate_ofFn_apply (t := S3072x1024) (0 : Fin 2) f h rfl 1024 rfl _ k
    (show j.val / 1024 = k.val by omega) (ix2 e d) (show e.val = j.val % 1024 by omega)
    fun b hb => match b, hb with | ⟨0, _⟩, hb => absurd rfl hb | ⟨1, _⟩, _ => rfl

end Layout

/-! Each operand a region reads, entry by entry, in terms of the buffers before the host stretch that prepares it. -/

variable (W : Valuation τ sig (Elt Ideal))

theorem glue_v1 (r : Fin 4096) (d : Fin 1024) :
    after hostOps0_1 W main_v1 (ix2 r d) = W main_v0 (ix3 (posOf r) (batchOf r) d) := by
  after_results; exact reshape_rows_apply ..

theorem glue_v4 (k : Fin 3) (d e : Fin 1024) (j : Fin 3072) (hj : j.val = 1024 * k.val + e.val) :
    after hostOps0_1 W main_v4 (ix2 d j)
      = (![W main_arg2, W main_arg3, W main_arg4] k : S1024x1024.Idx → EReal) (ix2 e d) := by
  after_results; rw [truncf_apply]
  exact stack3_transpose ![W main_arg2, W main_arg3, W main_arg4] _ _ k d e j hj

theorem glue_v7 (b : Fin 4) (s : Fin 1024) (j : Fin 3072) :
    after hostOps1 W main_v7 (ix3 b s j) = W main_v5 (ix2 (rowOf s b) j) := by
  after_results; exact (swap01_apply ..).trans (split_rows_apply ..)

theorem glue_v10 (r : Fin 4096) (d : Fin 1024) :
    after hostOps2 W main_v10 (ix2 r d) = W main_v8 (ix3 (batchOf r) (posOf r) d) := by
  after_results; exact (reshape_rows_apply ..).trans (swap01_apply ..)

theorem glue_v12 (d e : Fin 1024) : after hostOps2 W main_v12 (ix2 d e) = W main_arg5 (ix2 e d) := by
  after_results; exact transpose_ix2_apply ..

theorem glue_v14 (d : Fin 1024) (h : Fin 4096) : after hostOps2 W main_v14 (ix2 d h) = W main_arg7 (ix2 h d) := by
  after_results; exact transpose_ix2_apply ..

theorem glue_v16 (h : Fin 4096) (e : Fin 1024) : after hostOps2 W main_v16 (ix2 h e) = W main_arg9 (ix2 e h) := by
  after_results; exact transpose_ix2_apply ..

theorem glue_v17 (e : Fin 1024) : after hostOps2 W main_v17 (ix2 (0 : Fin 1) e) = W main_arg6 (ix1 e) := by
  after_results; exact shapeCast_a_1a_apply ..

theorem glue_v18 (h : Fin 4096) : after hostOps2 W main_v18 (ix2 (0 : Fin 1) h) = W main_arg8 (ix1 h) := by
  after_results; exact shapeCast_a_1a_apply ..

theorem glue_v19 (e : Fin 1024) : after hostOps2 W main_v19 (ix2 (0 : Fin 1) e) = W main_arg10 (ix1 e) := by
  after_results; exact shapeCast_a_1a_apply ..

theorem glue_v20 (e : Fin 1024) : after hostOps2 W main_v20 (ix2 (0 : Fin 1) e) = W main_arg11 (ix1 e) := by
  after_results; exact shapeCast_a_1a_apply ..

theorem glue_v21 (e : Fin 1024) : after hostOps2 W main_v21 (ix2 (0 : Fin 1) e) = W main_arg12 (ix1 e) := by
  after_results; exact shapeCast_a_1a_apply ..

theorem glue_v22 (e : Fin 1024) : after hostOps2 W main_v22 (ix2 (0 : Fin 1) e) = W main_arg13 (ix1 e) := by
  after_results; exact shapeCast_a_1a_apply ..

theorem glue_v23 (e : Fin 1024) : after hostOps2 W main_v23 (ix2 (0 : Fin 1) e) = W main_arg14 (ix1 e) := by
  after_results; exact shapeCast_a_1a_apply ..

theorem glue_v25 (v : Fin 32000) : after hostOps3 W main_v25 (ix2 (0 : Fin 1) v) = W main_arg16 (ix1 v) := by
  after_results; exact shapeCast_a_1a_apply ..

end Cert.KernelIdeal.HandV

end
-- ==== Proof.Val.KAll.lean ====
import proofs.«424417_j2491081031820_3_alg».proof.Proof.KI.RunBase
import proofs.«424417_j2491081031820_3_alg».proof.Proof.Val.K0
import proofs.«424417_j2491081031820_3_alg».proof.Proof.Val.K1
import proofs.«424417_j2491081031820_3_alg».proof.Proof.Val.K2
import proofs.«424417_j2491081031820_3_alg».proof.Proof.Val.K3
import proofs.«424417_j2491081031820_3_alg».proof.Proof.Val.KGlue
import proofs.«424417_j2491081031820_3_alg».proof.Proof.Spec

noncomputable section

namespace Cert.KernelIdeal.HandV

open Cert.KernelIdeal Cert.KernelIdeal.Gen Cert.KernelIdeal.Hand Idealize.ShloMosaic Idealize.ShloMosaic.TcCoe Idealize.SL.Sem Idealize.ShloMosaic.ValueIdx
open Idealize.ShloMosaic.StableHlo Cert.Spec

/-- A row against a matrix row depends only on the two rows, entry by entry. -/
theorem lin_congr {n n' k : ℕ} {x x' : Fin k → EReal} {A : Fin n → Fin k → EReal} {A' : Fin n' → Fin k → EReal}
    (j : Fin n) (e : Fin n') (hx : ∀ d, x d = x' d) (hA : ∀ d, A j d = A' e d) : lin x A j = lin x' A' e :=
  Finset.sum_congr rfl fun d _ => congrArg₂ (· * ·) (hx d) (hA d)

section Regions

variable (m : (ℓ : Loc nD τ sig) → Buf (Elt Ideal) ℓ) (outs : Gen.Outs (F := Ideal)) (c : Dev nD)

/-- The gathered embedding rows, the attended values of their three projections, and the post block's output row. -/
abbrev kall_X : Fin 4096 → Fin 1024 → EReal := fun r d => V1 m c main_v0 (ix3 (posOf r) (batchOf r) d)

abbrev kall_Z : Fin 4 → Fin 1024 → Fin 1024 → EReal :=
  zat (proj (kall_X m c) fun e d => m ((c.tc : Thread nD τ).loc main_arg2) (ix2 e d))
    (proj (kall_X m c) fun e d => m ((c.tc : Thread nD τ).loc main_arg3) (ix2 e d))
    (proj (kall_X m c) fun e d => m ((c.tc : Thread nD τ).loc main_arg4) (ix2 e d))

abbrev kall_O (r : Fin 4096) : Fin 1024 → EReal :=
  outp (fun d => kall_Z m c (batchOf r) (posOf r) d) (kall_X m c r)
    (fun e d => m ((c.tc : Thread nD τ).loc main_arg5) (ix2 e d)) (fun e => m ((c.tc : Thread nD τ).loc main_arg6) (ix1 e))
    (fun e => m ((c.tc : Thread nD τ).loc main_arg11) (ix1 e)) (fun e => m ((c.tc : Thread nD τ).loc main_arg12) (ix1 e))
    (fun h d => m ((c.tc : Thread nD τ).loc main_arg7) (ix2 h d)) (fun h => m ((c.tc : Thread nD τ).loc main_arg8) (ix1 h))
    (fun e h => m ((c.tc : Thread nD τ).loc main_arg9) (ix2 e h)) (fun e => m ((c.tc : Thread nD τ).loc main_arg10) (ix1 e))
    (fun e => m ((c.tc : Thread nD τ).loc main_arg13) (ix1 e)) (fun e => m ((c.tc : Thread nD τ).loc main_arg14) (ix1 e))

section
variable (hO : OutsOK m outs)
include hO

/-- After the first region: each embedding row against the stacked projection matrices. -/
theorem kall_v5 (r : Fin 4096) (j : Fin 3072) : V3 m outs c main_v5 (ix2 r j)
    = lin (fun d => V2 m c main_v1 (ix2 r d)) (fun j d => V2 m c main_v4 (ix2 d j)) j := by
  rw [V3_out, hO.h3]; exact final0 (E0 m) c r j

/-- Column `1024 k + e` of the stacked projections is the `k`-th projection's column `e`. -/
theorem kall_P (k : Fin 3) (b : Fin 4) (s e : Fin 1024) (j : Fin 3072) (hj : j.val = 1024 * k.val + e.val) :
    V4 m outs c main_v7 (ix3 b s j) = proj (kall_X m c)
      (fun e d => (![V1 m c main_arg2, V1 m c main_arg3, V1 m c main_arg4] k : S1024x1024.Idx → EReal) (ix2 e d)) b s e :=
  (glue_v7 _ b s j).trans <| (kall_v5 m outs c hO _ j).trans <|
    lin_congr j e (fun d => glue_v1 _ _ d) fun d => glue_v4 _ k d e j hj

/-- After the second region: the attended values. -/
theorem kall_v8 (b : Fin 4) (q d : Fin 1024) : V5 m outs c main_v8 (ix3 b q d) = kall_Z m c b q d := by
  rw [V5_out, hO.h5, final1]
  simp (disch := decide) only [fun b s e => kall_P m outs c hO 0 b s e ⟨e.val, by omega⟩ (by simp),
    fun b s e => kall_P m outs c hO 1 b s e ⟨1024 + e.val, by omega⟩ (by simp),
    fun b s e => kall_P m outs c hO 2 b s e ⟨2048 + e.val, by omega⟩ (by simp), V1_of m c]
  rfl

/-- After the third region: the post block's output rows. -/
theorem kall_v24 (r : Fin 4096) (e : Fin 1024) : V7 m outs c main_v24 (ix2 r e) = kall_O m c r e := by
  rw [V7_out, hO.h7, final2]
  simp (disch := decide) only [glue_v10 (V5 m outs c), glue_v12 (V5 m outs c), glue_v14 (V5 m outs c), glue_v16 (V5 m outs c),
    glue_v17 (V5 m outs c), glue_v18 (V5 m outs c), glue_v19 (V5 m outs c), glue_v20 (V5 m outs c), glue_v21 (V5 m outs c),
    glue_v22 (V5 m outs c), glue_v23 (V5 m outs c), glue_v1 (V1 m c), kall_v8 m outs c hO, V6_of m outs c, V5_of m outs c,
    V4_of m outs c, V3_of m outs c, V2_of m c, V1_of m c]

end

end Regions

/-- After the fourth region: the decoder's rows, that is, the layer's logits of the launch arguments. -/
theorem kernel_value (m : (ℓ : Loc nD τ sig) → Buf (Elt Ideal) ℓ) (outs : Gen.Outs (F := Ideal))
    (hO : Cert.KernelIdeal.Hand.OutsOK m outs) (c : Dev nD) (r : Fin 4096) (v : Fin 32000) :
    Gen.V9 m outs c main_v26 (ix2 r v)
      = Cert.Spec.logits (fun r d => Gen.V1 m c main_v0 (ix3 (Cert.Spec.posOf r) (Cert.Spec.batchOf r) d))
        (fun e d => m ((c.tc : Thread nD τ).loc main_arg2) (ix2 e d)) (fun e d => m ((c.tc : Thread nD τ).loc main_arg3) (ix2 e d)) (fun e d => m ((c.tc : Thread nD τ).loc main_arg4) (ix2 e d))
        (fun e d => m ((c.tc : Thread nD τ).loc main_arg5) (ix2 e d)) (fun e => m ((c.tc : Thread nD τ).loc main_arg6) (ix1 e)) (fun e => m ((c.tc : Thread nD τ).loc main_arg11) (ix1 e)) (fun e => m ((c.tc : Thread nD τ).loc main_arg12) (ix1 e))
        (fun h d => m ((c.tc : Thread nD τ).loc main_arg7) (ix2 h d)) (fun h => m ((c.tc : Thread nD τ).loc main_arg8) (ix1 h)) (fun e h => m ((c.tc : Thread nD τ).loc main_arg9) (ix2 e h)) (fun e => m ((c.tc : Thread nD τ).loc main_arg10) (ix1 e))
        (fun e => m ((c.tc : Thread nD τ).loc main_arg13) (ix1 e)) (fun e => m ((c.tc : Thread nD τ).loc main_arg14) (ix1 e)) (fun v d => m ((c.tc : Thread nD τ).loc main_arg15) (ix2 v d)) (fun v => m ((c.tc : Thread nD τ).loc main_arg16) (ix1 v)) r v := by
  rw [V9_out, hO.h9, final3]
  simp (disch := decide) only [glue_v25 (V7 m outs c), kall_v24 m outs c hO, V8_of m outs c, V7_of m outs c, V6_of m outs c,
    V5_of m outs c, V4_of m outs c, V3_of m outs c, V2_of m c, V1_of m c]
  rfl

end Cert.KernelIdeal.HandV

end
-- ==== Proof.Val.RefA.lean ====
import proofs.«424417_j2491081031820_3_alg».proof.Proof.Ref.Ops
import proofs.«424417_j2491081031820_3_alg».proof.Proof.Spec
import Idealize.ShloMosaic.Lib.IdealHost
import Idealize.ShloMosaic.Lib.ValueIdx
import Idealize.ShloMosaic.Lib.Pipeline.Value
import Idealize.ShloMosaic.Lib.Pipeline.Frame
import Idealize.ShloMosaic.Lib.StackMember
import Idealize.ShloMosaic.PureOps.Ideal.Laws

noncomputable section

namespace Cert.ReferenceIdeal.HandV

open Cert.ReferenceIdeal Cert.ReferenceIdeal.Gen Cert.ReferenceIdeal.HandRun
open Idealize.ShloMosaic Idealize.ShloMosaic.TcCoe Idealize.ShloMosaic.StableHlo Idealize.ShloMosaic.ValueIdx Idealize.SL.Sem
open scoped BigOperators

local notation "dP" => dot_S1024x1024_S1024x4x1024_S1024x1024x4_1_2_0_01_n_n
local notation "dS" => dot_S4x1024x1024_S4x1024x1024_S4x1024x1024_2_2_1_1_0_0
local notation "dZ" => dot_S4x1024x1024_S4x1024x1024_S4x1024x1024_1_2_2_1_0_0

theorem word_1024 : Ideal.ofBits .f32 0x44800000#32 = ((1024 : ℝ) : EReal) := by
  simp [Ideal.ofBits, Ideal.ieee, -EReal.coe_mul]; norm_num

theorem word_inv32 : Ideal.ofBits .f32 0x3D000000#32 = (((1 : ℝ) / 32 : ℝ) : EReal) := by
  simp [Ideal.ofBits, Ideal.ieee, -EReal.coe_mul]; norm_num

theorem sqrt_word_1024 : Ideal.sqrt (Ideal.ofBits .f32 0x44800000#32) = ((32 : ℝ) : EReal) := by
  rw [word_1024, Ideal.sqrt_coe, if_neg (by norm_num)]
  congr 1
  rw [show (1024 : ℝ) = 32 ^ 2 by norm_num, Real.sqrt_sq (by norm_num)]

/-- `x / √1024 = x · (1/32)`. -/
theorem div_sqrt_1024 (x : EReal) :
    Ideal.div x (Ideal.sqrt (Ideal.ofBits .f32 0x44800000#32)) = x * Cert.Spec.cScale := by
  rw [sqrt_word_1024, Ideal.div_coe (by norm_num), Cert.Spec.cScale, word_inv32]

theorem fin1 {P : Fin 1 → Prop} (h0 : P 0) : ∀ a, P a
  | ⟨0, _⟩ => h0
theorem fin2 {P : Fin 2 → Prop} (h0 : P 0) (h1 : P 1) : ∀ a, P a
  | ⟨0, _⟩ => h0
  | ⟨1, _⟩ => h1
theorem fin3 {P : Fin 3 → Prop} (h0 : P 0) (h1 : P 1) (h2 : P 2) : ∀ a, P a
  | ⟨0, _⟩ => h0
  | ⟨1, _⟩ => h1
  | ⟨2, _⟩ => h2

/-- A product contracting one axis, read at an index: the sum along that axis of the operands' products. -/
theorem dot1_read {sl sr so : Shape} {φ₁ φ₂ : FTy} (D : DotDims sl sr so) (n : Nat) (hr : D.contr.rank = 1)
    (hs : D.contr.size ⟨0, by omega⟩ = n) (x : FVec Ideal sl φ₁) (y : FVec Ideal sr φ₂) (j : so.Idx)
    (L : Fin n → sl.Idx) (R : Fin n → sr.Idx) (hL : ∀ k, D.lhsIdx j ((contrEquiv1 D n hr hs).symm k) = L k)
    (hR : ∀ k, D.rhsIdx j ((contrEquiv1 D n hr hs).symm k) = R k) :
    Host.dotGeneral D none x y j = ∑ k : Fin n, x (L k) * y (R k) := by
  simp only [Host.dotGeneral]
  rw [Ideal.dotGeneral_apply, ← Equiv.sum_comp (contrEquiv1 D n hr hs).symm]
  exact Finset.sum_congr rfl fun k _ => by rw [hL, hR]

theorem proj_read (w : FVec Ideal S1024x1024 .f32) (x : FVec Ideal S1024x4x1024 .f32) (e s : Fin 1024) (b : Fin 4) :
    Host.dotGeneral dP none w x (ix3 e s b) = ∑ d : Fin 1024, w (ix2 e d) * x (ix3 s b d) :=
  dot1_read dP 1024 rfl rfl w x _ _ _ (fun _ => (eq_ix2 _).trans rfl) fun _ => (eq_ix3 _).trans rfl

theorem scores_read (Q K : FVec Ideal S4x1024x1024 .f32) (b : Fin 4) (q k : Fin 1024) :
    Host.dotGeneral dS none Q K (ix3 b q k) = ∑ d : Fin 1024, Q (ix3 b q d) * K (ix3 b k d) :=
  dot1_read dS 1024 rfl rfl Q K _ _ _ (fun _ => (eq_ix3 _).trans rfl) fun _ => (eq_ix3 _).trans rfl

theorem wsum_read (V A : FVec Ideal S4x1024x1024 .f32) (b : Fin 4) (d q : Fin 1024) :
    Host.dotGeneral dZ none V A (ix3 b d q) = ∑ k : Fin 1024, V (ix3 b k d) * A (ix3 b q k) :=
  dot1_read dZ 1024 rfl rfl V A _ _ _ (fun _ => (eq_ix3 _).trans rfl) fun _ => (eq_ix3 _).trans rfl

theorem tr210_read {α : Type} (y : S1024x1024x4.Idx → α) (b : Fin 4) (s e : Fin 1024) :
    transpose S4x1024x1024 [2, 1, 0] y transposes_S1024x1024x4_S4x1024x1024_2_1_0 (ix3 b s e) = y (ix3 e s b) :=
  transpose_apply _ _ _ _ _ (fin3 rfl rfl rfl)

theorem tr201_read {α : Type} (y : S4x1024x1024.Idx → α) (q : Fin 1024) (b : Fin 4) (d : Fin 1024) :
    transpose S1024x4x1024 [2, 0, 1] y transposes_S4x1024x1024_S1024x4x1024_2_0_1 (ix3 q b d) = y (ix3 b d q) :=
  transpose_apply _ _ _ _ _ (fin3 rfl rfl rfl)

abbrev refProj (w : FVec Ideal S1024x1024 .f32) (x : FVec Ideal S1024x4x1024 .f32) : FVec Ideal S4x1024x1024 .f32 :=
  transpose S4x1024x1024 [2, 1, 0] (Host.dotGeneral dP none w x) transposes_S1024x1024x4_S4x1024x1024_2_1_0

theorem refProj_read (w : FVec Ideal S1024x1024 .f32) (x : FVec Ideal S1024x4x1024 .f32) (b : Fin 4) (s e : Fin 1024) :
    refProj w x (ix3 b s e) = Cert.Spec.lin (fun d => x (ix3 s b d)) (fun e d => w (ix2 e d)) e := by
  unfold refProj
  rw [tr210_read, proj_read]
  exact Finset.sum_congr rfl fun d _ => mul_comm _ _

/-- The maximum along the key axis is the fold of `max` over the keys from the initial value. -/
theorem rowmax_read (x : FVec Ideal S4x1024x1024 .f32) (v : FVec Ideal S_ .f32) (b : Fin 4) (q : Fin 1024) :
    Host.reduce FloatOps.maximumf x v reducesTo_S4x1024x1024_S4x1024_d2 h_S_ (ix2 b q)
      = (Finset.univ : Finset (Fin 1024)).fold max (v ix0) (fun k => x (ix3 b q k)) := by
  rw [Host.reduce_eq_fold_single FloatOps.maximumf x v reducesTo_S4x1024x1024_S4x1024_d2 (by decide) h_S_,
    show v (Shape.Idx.first h_S_) = v ix0 from congrArg v (eq_ix0 _)]
  exact congrArg (Finset.univ.fold max (v ix0)) (funext fun k => congrArg x ((eq_ix3 _).trans rfl))

/-- The sum along the key axis is the initial value plus the sum over the keys. -/
theorem rowsum_read (x : FVec Ideal S4x1024x1024 .f32) (v : FVec Ideal S_ .f32) (b : Fin 4) (q : Fin 1024) :
    Host.reduceAdd x v reducesTo_S4x1024x1024_S4x1024_d2 h_S_ (ix2 b q) = v ix0 + ∑ k : Fin 1024, x (ix3 b q k) := by
  rw [hostReduceAdd_apply, Ideal.hostReduceAdd_single reducesTo_S4x1024x1024_S4x1024_d2 (by decide),
    show v (Shape.Idx.first h_S_) = v ix0 from congrArg v (eq_ix0 _)]
  exact congrArg (v ix0 + ·) (Finset.sum_congr rfl fun k _ => congrArg x ((eq_ix3 _).trans rfl))

/-- A row statistic broadcast along the keys does not depend on the key. -/
theorem bc_row_read {α : Type} (y : S4x1024.Idx → α) (b : Fin 4) (q k : Fin 1024) :
    broadcastInDim S4x1024x1024 ![0, 1, 2] bcast_S4x1024x1_S4x1024x1024_0_1_2
      (broadcastInDim S4x1024x1 ![0, 1] bcast_S4x1024_S4x1024x1_0_1 y) (ix3 b q k) = y (ix2 b q) :=
  (broadcastInDim_apply _ _ _ _ (ix3 b q (0 : Fin 1)) (fin3 rfl rfl rfl)).trans
    (broadcastInDim_apply _ _ _ _ _ (fin2 rfl rfl))

section Attention

variable (Q K V : FVec Ideal S4x1024x1024 .f32)

abbrev refScore : FVec Ideal S4x1024x1024 .f32 :=
  Host.divf (Host.dotGeneral dS none Q K)
    (broadcastInDim S4x1024x1024 ![] bcast_S_S4x1024x1024 (Host.sqrt (constant (F := Ideal) S_ .f32 0x44800000#32)))

theorem refScore_read (b : Fin 4) (q k : Fin 1024) :
    refScore Q K (ix3 b q k)
      = Cert.Spec.score (fun b s e => Q (ix3 b s e)) (fun b s e => K (ix3 b s e)) b q k := by
  unfold refScore
  rw [hostDivf_apply, scores_read, broadcastInDim_scalar_apply]
  exact div_sqrt_1024 _

abbrev refMax : FVec Ideal S4x1024 .f32 :=
  maximumf (broadcastInDim S4x1024 ![] bcast_S_S4x1024 (constant (F := Ideal) S_ .f32 0xFF800000#32))
    (Host.reduce FloatOps.maximumf (refScore Q K) (constant (F := Ideal) S_ .f32 0xFF800000#32)
      reducesTo_S4x1024x1024_S4x1024_d2 h_S_)

/-- `max (−∞) m = m` for a fold `m` of `max` that starts at −∞. -/
theorem refMax_read (b : Fin 4) (q : Fin 1024) :
    refMax Q K (ix2 b q) = Cert.Spec.smax (fun b s e => Q (ix3 b s e)) (fun b s e => K (ix3 b s e)) b q := by
  unfold refMax
  rw [maximumf_apply, broadcastInDim_scalar_apply, rowmax_read]
  show max Cert.Spec.cNegInf ((Finset.univ : Finset (Fin 1024)).fold max Cert.Spec.cNegInf
      fun k => refScore Q K (ix3 b q k)) = _
  rw [max_eq_right ((Finset.le_fold_max Cert.Spec.cNegInf).mpr (Or.inl le_rfl))]
  exact congrArg (Finset.univ.fold max Cert.Spec.cNegInf) (funext fun k => refScore_read Q K b q k)

abbrev refExp : FVec Ideal S4x1024x1024 .f32 :=
  Host.exp (subf (refScore Q K)
    (broadcastInDim S4x1024x1024 ![0, 1, 2] bcast_S4x1024x1_S4x1024x1024_0_1_2
      (broadcastInDim S4x1024x1 ![0, 1] bcast_S4x1024_S4x1024x1_0_1 (refMax Q K))))

theorem refExp_read (b : Fin 4) (q k : Fin 1024) :
    refExp Q K (ix3 b q k)
      = Cert.Spec.pexp (fun b s e => Q (ix3 b s e)) (fun b s e => K (ix3 b s e)) b q k := by
  unfold refExp
  show Ideal.exp (subf (refScore Q K) _ (ix3 b q k)) = _
  rw [subf_apply, bc_row_read, refScore_read, refMax_read]
  rfl

abbrev refSum : FVec Ideal S4x1024 .f32 :=
  Host.reduceAdd (refExp Q K) (constant (F := Ideal) S_ .f32 0x00000000#32) reducesTo_S4x1024x1024_S4x1024_d2 h_S_

theorem refSum_read (b : Fin 4) (q : Fin 1024) :
    refSum Q K (ix2 b q) = Cert.Spec.psum (fun b s e => Q (ix3 b s e)) (fun b s e => K (ix3 b s e)) b q := by
  unfold refSum
  rw [rowsum_read, constant_apply, Ideal.ofBits_zero_f32, zero_add]
  exact Finset.sum_congr rfl fun k _ => refExp_read Q K b q k

abbrev refAttn : FVec Ideal S4x1024x1024 .f32 :=
  Host.divf (refExp Q K)
    (broadcastInDim S4x1024x1024 ![0, 1, 2] bcast_S4x1024x1_S4x1024x1024_0_1_2
      (broadcastInDim S4x1024x1 ![0, 1] bcast_S4x1024_S4x1024x1_0_1 (refSum Q K)))

theorem refAttn_read (b : Fin 4) (q k : Fin 1024) :
    refAttn Q K (ix3 b q k)
      = Cert.Spec.attn (fun b s e => Q (ix3 b s e)) (fun b s e => K (ix3 b s e)) b q k := by
  unfold refAttn
  rw [hostDivf_apply, bc_row_read, refExp_read, refSum_read]
  rfl

abbrev refZat : FVec Ideal S1024x4x1024 .f32 :=
  transpose S1024x4x1024 [2, 0, 1] (Host.dotGeneral dZ none V (refAttn Q K)) transposes_S4x1024x1024_S1024x4x1024_2_0_1

theorem refZat_read (q : Fin 1024) (b : Fin 4) (d : Fin 1024) :
    refZat Q K V (ix3 q b d)
      = Cert.Spec.zat (fun b s e => Q (ix3 b s e)) (fun b s e => K (ix3 b s e)) (fun b s e => V (ix3 b s e)) b q d := by
  unfold refZat
  rw [tr201_read, wsum_read]
  exact Finset.sum_congr rfl fun k _ => by rw [refAttn_read, mul_comm]

end Attention

variable (W : Valuation τ sig (Elt Ideal))

theorem emb_eq : StableHlo.after opsEmb W (main_v6 : DevRef τ sig)
    = Host.gather gather_S32000x1024_S1024x4x1_S1024x4x1024_2_0_n_n_0_2_11024 (W main_arg1)
        (broadcastInDim S1024x4x1 ![0, 1] bcast_S1024x4_S1024x4x1_0_1
          (select (cmpi .slt (W main_arg0) (broadcastInDim S1024x4 ![] bcast_S_S1024x4 (constantI S_ 32 0#32)))
            (addi (W main_arg0) (broadcastInDim S1024x4 ![] bcast_S_S1024x4 (constantI S_ 32 32000#32)))
            (W main_arg0))) := by
  after_results

/-- The three projections, batch axis in front, are the embedding rows against the three weight matrices. -/
theorem qkv_eq : StableHlo.after opsQKV W main_v8 = refProj (W main_arg2) (W main_v6)
    ∧ StableHlo.after opsQKV W main_v10 = refProj (W main_arg3) (W main_v6)
    ∧ StableHlo.after opsQKV W main_v12 = refProj (W main_arg4) (W main_v6) := by
  refine ⟨?_, ?_, ?_⟩ <;> after_results

set_option maxHeartbeats 4000000 in
/-- The attention's output at an index is `zat` of the three projections. -/
theorem att_eq (q : Fin 1024) (b : Fin 4) (d : Fin 1024) :
    StableHlo.after opsAtt W main_v29 (ix3 q b d)
      = Cert.Spec.zat (fun b s e => W main_v8 (ix3 b s e)) (fun b s e => W main_v10 (ix3 b s e))
          (fun b s e => W main_v12 (ix3 b s e)) b q d := by
  have h : (StableHlo.after opsAtt W (main_v29 : DevRef τ sig) : FVec Ideal S1024x4x1024 .f32)
      = refZat (W main_v8 : FVec Ideal S4x1024x1024 .f32) (W main_v10 : FVec Ideal S4x1024x1024 .f32)
          (W main_v12 : FVec Ideal S4x1024x1024 .f32) := by
    after_results_simp
  rw [h]
  exact refZat_read (W main_v8) (W main_v10) (W main_v12) q b d

end Cert.ReferenceIdeal.HandV

end
-- ==== Proof.Val.RefB.lean ====
import proofs.«424417_j2491081031820_3_alg».proof.Proof.Ref.Run
import proofs.«424417_j2491081031820_3_alg».proof.Proof.Val.RefA

noncomputable section

namespace Cert.ReferenceIdeal.HandV

open Cert.ReferenceIdeal Cert.ReferenceIdeal.Gen Cert.ReferenceIdeal.HandRun Idealize.ShloMosaic Idealize.ShloMosaic.TcCoe Idealize.SL.Sem Idealize.ShloMosaic.StableHlo Idealize.ShloMosaic.ValueIdx

theorem dotWo_apply (z : FVec Ideal S1024x4x1024 .f32) (w : FVec Ideal S1024x1024 .f32) (s : Fin 1024) (b : Fin 4) (e : Fin 1024) :
    Host.dotGeneral dot_S1024x4x1024_S1024x1024_S1024x4x1024_2_1_01_0_n_n none z w (ix3 s b e)
      = ∑ d : Fin 1024, z (ix3 s b d) * w (ix2 e d) :=
  dot1_read _ 1024 rfl rfl z w _ _ _ (fun _ => (eq_ix3 _).trans rfl) fun _ => (eq_ix2 _).trans rfl

theorem dotW1_apply (x : FVec Ideal S1024x4x1024 .f32) (w : FVec Ideal S4096x1024 .f32) (s : Fin 1024) (b : Fin 4) (h : Fin 4096) :
    Host.dotGeneral dot_S1024x4x1024_S4096x1024_S1024x4x4096_2_1_01_0_n_n none x w (ix3 s b h)
      = ∑ d : Fin 1024, x (ix3 s b d) * w (ix2 h d) :=
  dot1_read _ 1024 rfl rfl x w _ _ _ (fun _ => (eq_ix3 _).trans rfl) fun _ => (eq_ix2 _).trans rfl

theorem dotW2_apply (y : FVec Ideal S1024x4x4096 .f32) (w : FVec Ideal S1024x4096 .f32) (s : Fin 1024) (b : Fin 4) (e : Fin 1024) :
    Host.dotGeneral dot_S1024x4x4096_S1024x4096_S1024x4x1024_2_1_01_0_n_n none y w (ix3 s b e)
      = ∑ h : Fin 4096, y (ix3 s b h) * w (ix2 e h) :=
  dot1_read _ 4096 rfl rfl y w _ _ _ (fun _ => (eq_ix3 _).trans rfl) fun _ => (eq_ix2 _).trans rfl

theorem sumLast_apply (x : FVec Ideal S1024x4x1024 .f32) (s : Fin 1024) (b : Fin 4) :
    Host.reduceAdd (F := Ideal) x (constant (F := Ideal) S_ .f32 0x00000000#32) reducesTo_S1024x4x1024_S1024x4_d2 h_S_ (ix2 s b)
      = ∑ d : Fin 1024, x (ix3 s b d) := by
  rw [hostReduceAdd_apply, Ideal.hostReduceAdd_single reducesTo_S1024x4x1024_S1024x4_d2 (by decide), constant_apply,
    Ideal.ofBits_zero_f32, zero_add]
  exact Finset.sum_congr rfl fun d _ => congrArg x ((eq_ix3 _).trans rfl)

theorem keep_apply (y : FVec Ideal S1024x4 .f32) (s : Fin 1024) (b : Fin 4) (u : Fin 1) :
    broadcastInDim S1024x4x1 ![0, 1] bcast_S1024x4_S1024x4x1_0_1 y (ix3 s b u) = y (ix2 s b) :=
  broadcastInDim_apply _ _ _ _ _ (fin2 rfl rfl)

theorem spread_apply (y : FVec Ideal S1024x4x1 .f32) (s : Fin 1024) (b : Fin 4) (e : Fin 1024) :
    broadcastInDim S1024x4x1024 ![0, 1, 2] bcast_S1024x4x1_S1024x4x1024_0_1_2 y (ix3 s b e) = y (ix3 s b (0 : Fin 1)) :=
  broadcastInDim_apply _ _ _ _ _ (fin3 rfl rfl rfl)

theorem bias_apply (v : FVec Ideal S1024 .f32) (s : Fin 1024) (b : Fin 4) (e : Fin 1024) :
    broadcastInDim S1024x4x1024 ![0, 1, 2] bcast_S1x1x1024_S1024x4x1024_0_1_2
      (broadcastInDim S1x1x1024 ![2] bcast_S1024_S1x1x1024_2 v) (ix3 s b e) = v (ix1 e) :=
  (broadcastInDim_apply _ _ _ _ (ix3 (0 : Fin 1) (0 : Fin 1) e) (fin3 rfl rfl rfl)).trans
    (broadcastInDim_apply _ _ _ _ _ (fin1 rfl))

theorem bias4096_apply (v : FVec Ideal S4096 .f32) (s : Fin 1024) (b : Fin 4) (h : Fin 4096) :
    broadcastInDim S1024x4x4096 ![0, 1, 2] bcast_S1x1x4096_S1024x4x4096_0_1_2
      (broadcastInDim S1x1x4096 ![2] bcast_S4096_S1x1x4096_2 v) (ix3 s b h) = v (ix1 h) :=
  (broadcastInDim_apply _ _ _ _ (ix3 (0 : Fin 1) (0 : Fin 1) h) (fin3 rfl rfl rfl)).trans
    (broadcastInDim_apply _ _ _ _ _ (fin1 rfl))

theorem biasVocab_apply (v : FVec Ideal S32000 .f32) (r : Fin 4096) (w : Fin 32000) :
    broadcastInDim S4096x32000 ![0, 1] bcast_S1x32000_S4096x32000_0_1
      (broadcastInDim S1x32000 ![1] bcast_S32000_S1x32000_1 v) (ix2 r w) = v (ix1 w) :=
  (broadcastInDim_apply _ _ _ _ (ix2 (0 : Fin 1) w) (fin2 rfl rfl)).trans (broadcastInDim_apply _ _ _ _ _ (fin1 rfl))

theorem cN_pos : (0 : EReal) < Cert.Spec.cN := by
  rw [Cert.Spec.cN, word_1024]; exact EReal.coe_pos.mpr (by norm_num)

/-- Flattening sends `(s, b)` to `4 s + b`, so row `r` comes from `s = r / 4`, `b = r % 4`. -/
theorem flatten_apply (o : FVec Ideal S1024x4x1024 .f32) (r : Fin 4096) (d : Fin 1024) :
    shapeCast S4096x1024 o shapeCasts_S1024x4x1024_S4096x1024 (ix2 r d)
      = o (ix3 (Cert.Spec.posOf r) (Cert.Spec.batchOf r) d) := by
  refine shapeCast_apply _ _ _ (ix3 (Cert.Spec.posOf r) (Cert.Spec.batchOf r) d) ?_
  rw [Shape.rowMajor_val_three, Shape.rowMajor_val_two]
  show (r.val / 4 * 4 + r.val % 4) * 1024 + d.val = r.val * 1024 + d.val
  omega

theorem transposeVocab_apply (w : FVec Ideal S32000x1024 .f32) (d : Fin 1024) (v : Fin 32000) :
    transpose S1024x32000 [1, 0] w transposes_S32000x1024_S1024x32000_1_0 (ix2 d v) = w (ix2 v d) :=
  transpose_apply _ _ _ _ _ (fin2 rfl rfl)

def xpreT (z x : FVec Ideal S1024x4x1024 .f32) (wo : FVec Ideal S1024x1024 .f32) (bo : FVec Ideal S1024 .f32) :
    FVec Ideal S1024x4x1024 .f32 :=
  addf x
    (addf (Host.dotGeneral dot_S1024x4x1024_S1024x1024_S1024x4x1024_2_1_01_0_n_n none z wo)
      (broadcastInDim S1024x4x1024 ![0, 1, 2] bcast_S1x1x1024_S1024x4x1024_0_1_2 (broadcastInDim S1x1x1024 ![2] bcast_S1024_S1x1x1024_2 bo)))

theorem xpreT_apply (z x : FVec Ideal S1024x4x1024 .f32) (wo : FVec Ideal S1024x1024 .f32) (bo : FVec Ideal S1024 .f32)
    (s : Fin 1024) (b : Fin 4) (e : Fin 1024) :
    xpreT z x wo bo (ix3 s b e)
      = Cert.Spec.xpre (fun d => z (ix3 s b d)) (fun d => x (ix3 s b d)) (fun e d => wo (ix2 e d)) (fun e => bo (ix1 e)) e := by
  unfold xpreT Cert.Spec.xpre Cert.Spec.lin
  rw [addf_apply, addf_apply, dotWo_apply, bias_apply]

def meanT (x : FVec Ideal S1024x4x1024 .f32) : FVec Ideal S1024x4x1 .f32 :=
  Host.divf
    (broadcastInDim S1024x4x1 ![0, 1] bcast_S1024x4_S1024x4x1_0_1
      (Host.reduceAdd x (constant (F := Ideal) S_ .f32 0x00000000#32) reducesTo_S1024x4x1024_S1024x4_d2 h_S_))
    (broadcastInDim S1024x4x1 ![] bcast_S_S1024x4x1 (constant (F := Ideal) S_ .f32 0x44800000#32))

def divisorT : FVec Ideal S_ .f32 :=
  subf (constant (F := Ideal) S_ .f32 0x44800000#32) (sitofp .f32 (constantI S_ 32 0#32))

def varT (x : FVec Ideal S1024x4x1024 .f32) : FVec Ideal S1024x4x1 .f32 :=
  select
    (broadcastInDim S1024x4x1 ![] bcast_S_S1024x4x1 (cmpf .ogt divisorT (constant (F := Ideal) S_ .f32 0x00000000#32)))
    (Host.divf
      (broadcastInDim S1024x4x1 ![0, 1] bcast_S1024x4_S1024x4x1_0_1
        (Host.reduceAdd
          (mulf (subf x (broadcastInDim S1024x4x1024 ![0, 1, 2] bcast_S1024x4x1_S1024x4x1024_0_1_2 (meanT x)))
            (subf x (broadcastInDim S1024x4x1024 ![0, 1, 2] bcast_S1024x4x1_S1024x4x1024_0_1_2 (meanT x))))
          (constant (F := Ideal) S_ .f32 0x00000000#32) reducesTo_S1024x4x1024_S1024x4_d2 h_S_))
      (broadcastInDim S1024x4x1 ![] bcast_S_S1024x4x1 divisorT))
    (broadcastInDim S1024x4x1 ![] bcast_S_S1024x4x1 (id (constant (F := Ideal) S_ .f32 0x7FC00000#32)))

def lnT (x : FVec Ideal S1024x4x1024 .f32) (g be : FVec Ideal S1024 .f32) : FVec Ideal S1024x4x1024 .f32 :=
  addf
    (mulf
      (mulf (subf x (broadcastInDim S1024x4x1024 ![0, 1, 2] bcast_S1024x4x1_S1024x4x1024_0_1_2 (meanT x)))
        (broadcastInDim S1024x4x1024 ![0, 1, 2] bcast_S1024x4x1_S1024x4x1024_0_1_2
          (Host.rsqrt (addf (varT x) (broadcastInDim S1024x4x1 ![] bcast_S_S1024x4x1 (constant (F := Ideal) S_ .f32 0x3727C5AC#32))))))
      (broadcastInDim S1024x4x1024 ![0, 1, 2] bcast_S1x1x1024_S1024x4x1024_0_1_2 (broadcastInDim S1x1x1024 ![2] bcast_S1024_S1x1x1024_2 g)))
    (broadcastInDim S1024x4x1024 ![0, 1, 2] bcast_S1x1x1024_S1024x4x1024_0_1_2 (broadcastInDim S1x1x1024 ![2] bcast_S1024_S1x1x1024_2 be))

/-- `1024 − float 0 = 1024`. -/
theorem divisorT_apply (j : S_.Idx) : divisorT j = Cert.Spec.cN := by
  show Cert.Spec.cN - (((0#32 : BitVec 32).toInt : ℝ) : EReal) = Cert.Spec.cN
  simp

theorem gate_apply (j : S_.Idx) :
    cmpf (F := Ideal) .ogt divisorT (constant (F := Ideal) S_ .f32 0x00000000#32) j = 1#1 := by
  rw [cmpf_apply, divisorT_apply, constant_apply, Ideal.ofBits_zero_f32, Ideal.cmpf_def]
  show BitVec.ofBool (decide ((0 : EReal) < Cert.Spec.cN)) = 1#1
  rw [decide_eq_true cN_pos]; rfl

theorem meanT_apply (x : FVec Ideal S1024x4x1024 .f32) (s : Fin 1024) (b : Fin 4) (u : Fin 1) :
    meanT x (ix3 s b u) = Ideal.div (∑ d : Fin 1024, x (ix3 s b d)) Cert.Spec.cN := by
  unfold meanT
  rw [hostDivf_apply, keep_apply, sumLast_apply, broadcastInDim_scalar_apply, constant_apply]

theorem varT_apply (x : FVec Ideal S1024x4x1024 .f32) (s : Fin 1024) (b : Fin 4) (u : Fin 1) :
    varT x (ix3 s b u)
      = Ideal.div (∑ d : Fin 1024, (x (ix3 s b d) - Ideal.div (∑ d' : Fin 1024, x (ix3 s b d')) Cert.Spec.cN)
          * (x (ix3 s b d) - Ideal.div (∑ d' : Fin 1024, x (ix3 s b d')) Cert.Spec.cN)) Cert.Spec.cN := by
  unfold varT
  rw [select_apply, broadcastInDim_scalar_apply, gate_apply, select_one, hostDivf_apply, keep_apply, sumLast_apply,
    broadcastInDim_scalar_apply, divisorT_apply]
  congr 1
  refine Finset.sum_congr rfl fun d _ => ?_
  rw [mulf_apply, subf_apply, spread_apply, meanT_apply]

theorem lnT_apply (x : FVec Ideal S1024x4x1024 .f32) (g be : FVec Ideal S1024 .f32) (s : Fin 1024) (b : Fin 4) (e : Fin 1024) :
    lnT x g be (ix3 s b e)
      = Cert.Spec.ln (fun d => x (ix3 s b d)) (fun e => g (ix1 e)) (fun e => be (ix1 e)) e := by
  unfold lnT Cert.Spec.ln
  rw [addf_apply, mulf_apply, mulf_apply, subf_apply, spread_apply, meanT_apply, spread_apply, bias_apply, bias_apply]
  show _ * Ideal.rsqrt (varT x (ix3 s b (0 : Fin 1)) + Cert.Spec.cEps) * _ + _ = _
  rw [varT_apply]

def hidT (x : FVec Ideal S1024x4x1024 .f32) (w1 : FVec Ideal S4096x1024 .f32) (b1 : FVec Ideal S4096 .f32) :
    FVec Ideal S1024x4x4096 .f32 :=
  maximumf
    (addf (Host.dotGeneral dot_S1024x4x1024_S4096x1024_S1024x4x4096_2_1_01_0_n_n none x w1)
      (broadcastInDim S1024x4x4096 ![0, 1, 2] bcast_S1x1x4096_S1024x4x4096_0_1_2 (broadcastInDim S1x1x4096 ![2] bcast_S4096_S1x1x4096_2 b1)))
    (broadcastInDim S1024x4x4096 ![] bcast_S_S1024x4x4096 (constant (F := Ideal) S_ .f32 0x00000000#32))

theorem hidT_apply (x : FVec Ideal S1024x4x1024 .f32) (w1 : FVec Ideal S4096x1024 .f32) (b1 : FVec Ideal S4096 .f32)
    (s : Fin 1024) (b : Fin 4) (h : Fin 4096) :
    hidT x w1 b1 (ix3 s b h)
      = max (Cert.Spec.lin (fun d => x (ix3 s b d)) (fun h d => w1 (ix2 h d)) h + b1 (ix1 h)) Cert.Spec.cZero := by
  unfold hidT Cert.Spec.lin
  rw [maximumf_apply, addf_apply, dotW1_apply, bias4096_apply, broadcastInDim_scalar_apply, constant_apply]

def ffnT (x : FVec Ideal S1024x4x1024 .f32) (w1 : FVec Ideal S4096x1024 .f32) (b1 : FVec Ideal S4096 .f32)
    (w2 : FVec Ideal S1024x4096 .f32) (b2 : FVec Ideal S1024 .f32) : FVec Ideal S1024x4x1024 .f32 :=
  addf x
    (addf (Host.dotGeneral dot_S1024x4x4096_S1024x4096_S1024x4x1024_2_1_01_0_n_n none (hidT x w1 b1) w2)
      (broadcastInDim S1024x4x1024 ![0, 1, 2] bcast_S1x1x1024_S1024x4x1024_0_1_2 (broadcastInDim S1x1x1024 ![2] bcast_S1024_S1x1x1024_2 b2)))

/-- `x + (W₂ · max (W₁ · x + b₁) 0 + b₂)`, row-wise. -/
def ffnRow (x : Fin 1024 → EReal) (W1 : Fin 4096 → Fin 1024 → EReal) (b1 : Fin 4096 → EReal) (W2 : Fin 1024 → Fin 4096 → EReal)
    (b2 : Fin 1024 → EReal) (e : Fin 1024) : EReal :=
  x e + (Cert.Spec.lin (fun h => max (Cert.Spec.lin x W1 h + b1 h) Cert.Spec.cZero) W2 e + b2 e)

theorem ffnT_apply (x : FVec Ideal S1024x4x1024 .f32) (w1 : FVec Ideal S4096x1024 .f32) (b1 : FVec Ideal S4096 .f32)
    (w2 : FVec Ideal S1024x4096 .f32) (b2 : FVec Ideal S1024 .f32) (s : Fin 1024) (b : Fin 4) (e : Fin 1024) :
    ffnT x w1 b1 w2 b2 (ix3 s b e)
      = ffnRow (fun d => x (ix3 s b d)) (fun h d => w1 (ix2 h d)) (fun h => b1 (ix1 h)) (fun e h => w2 (ix2 e h))
          (fun e => b2 (ix1 e)) e := by
  unfold ffnT ffnRow
  rw [addf_apply, addf_apply, dotW2_apply, bias_apply]
  unfold Cert.Spec.lin
  congr 2
  refine Finset.sum_congr rfl fun h _ => ?_
  rw [hidT_apply]
  rfl

def decT (o : FVec Ideal S1024x4x1024 .f32) (wd : FVec Ideal S32000x1024 .f32) (bd : FVec Ideal S32000 .f32) :
    FVec Ideal S4096x32000 .f32 :=
  addf
    (Host.dotGeneral dot_S4096x1024_S1024x32000_S4096x32000_1_0_0_1_n_n none
      (shapeCast S4096x1024 o shapeCasts_S1024x4x1024_S4096x1024)
      (transpose S1024x32000 [1, 0] wd transposes_S32000x1024_S1024x32000_1_0))
    (broadcastInDim S4096x32000 ![0, 1] bcast_S1x32000_S4096x32000_0_1 (broadcastInDim S1x32000 ![1] bcast_S32000_S1x32000_1 bd))

theorem decT_apply (o : FVec Ideal S1024x4x1024 .f32) (wd : FVec Ideal S32000x1024 .f32) (bd : FVec Ideal S32000 .f32)
    (r : Fin 4096) (v : Fin 32000) :
    decT o wd bd (ix2 r v)
      = Cert.Spec.dec (fun d => o (ix3 (Cert.Spec.posOf r) (Cert.Spec.batchOf r) d)) (fun v d => wd (ix2 v d)) (fun v => bd (ix1 v)) v := by
  unfold decT Cert.Spec.dec Cert.Spec.lin
  rw [addf_apply, show Host.dotGeneral dot_S4096x1024_S1024x32000_S4096x32000_1_0_0_1_n_n none _ _ (ix2 r v) = _ from
    StackMember.dotGeneral_plain_apply none _ _ r v, biasVocab_apply]
  congr 1
  refine Finset.sum_congr rfl fun d _ => ?_
  rw [flatten_apply, transposeVocab_apply]

variable (W : Valuation τ sig (Elt Ideal))

theorem zo_fold :
    (after opsZo W main_v34 : S1024x4x1024.Idx → EReal) = xpreT (W main_v29) (W main_v6) (W main_arg5) (W main_arg6) := by
  after_results
  rfl

set_option maxHeartbeats 1600000 in
theorem ln1_fold :
    (after opsLn1 W main_v52 : S1024x4x1024.Idx → EReal) = lnT (W main_v34) (W main_arg11) (W main_arg12) := by
  after_results_simp
  rfl

theorem ffn_fold :
    (after opsFfn W main_v62 : S1024x4x1024.Idx → EReal)
      = ffnT (W main_v52) (W main_arg7) (W main_arg8) (W main_arg9) (W main_arg10) := by
  after_results
  rfl

set_option maxHeartbeats 1600000 in
theorem ln2_fold :
    (after opsLn2 W main_v80 : S1024x4x1024.Idx → EReal) = lnT (W main_v62) (W main_arg13) (W main_arg14) := by
  after_results_simp
  rfl

theorem dec_fold :
    (after opsDec W main_v86 : S4096x32000.Idx → EReal) = decT (W main_v80) (W main_arg15) (W main_arg16) := by
  after_results
  rfl

theorem zo_row (s : Fin 1024) (b : Fin 4) :
    (fun e => after opsZo W main_v34 (ix3 s b e))
      = Cert.Spec.xpre (fun d => W main_v29 (ix3 s b d)) (fun d => W main_v6 (ix3 s b d)) (fun e d => W main_arg5 (ix2 e d))
          (fun e => W main_arg6 (ix1 e)) :=
  funext fun e => (congrFun (zo_fold W) _).trans (xpreT_apply _ _ _ _ s b e)

theorem ln1_row (s : Fin 1024) (b : Fin 4) :
    (fun e => after opsLn1 W main_v52 (ix3 s b e))
      = Cert.Spec.ln (fun d => W main_v34 (ix3 s b d)) (fun e => W main_arg11 (ix1 e)) (fun e => W main_arg12 (ix1 e)) :=
  funext fun e => (congrFun (ln1_fold W) _).trans (lnT_apply _ _ _ s b e)

theorem ffn_row (s : Fin 1024) (b : Fin 4) :
    (fun e => after opsFfn W main_v62 (ix3 s b e))
      = ffnRow (fun d => W main_v52 (ix3 s b d)) (fun h d => W main_arg7 (ix2 h d)) (fun h => W main_arg8 (ix1 h))
          (fun e h => W main_arg9 (ix2 e h)) (fun e => W main_arg10 (ix1 e)) :=
  funext fun e => (congrFun (ffn_fold W) _).trans (ffnT_apply _ _ _ _ _ s b e)

theorem ln2_row (s : Fin 1024) (b : Fin 4) :
    (fun e => after opsLn2 W main_v80 (ix3 s b e))
      = Cert.Spec.ln (fun d => W main_v62 (ix3 s b d)) (fun e => W main_arg13 (ix1 e)) (fun e => W main_arg14 (ix1 e)) :=
  funext fun e => (congrFun (ln2_fold W) _).trans (lnT_apply _ _ _ s b e)

theorem dec_eq (r : Fin 4096) (v : Fin 32000) :
    after opsDec W main_v86 (ix2 r v)
      = Cert.Spec.dec (fun d => W main_v80 (ix3 (Cert.Spec.posOf r) (Cert.Spec.batchOf r) d)) (fun v d => W main_arg15 (ix2 v d))
          (fun v => W main_arg16 (ix1 v)) v :=
  (congrFun (dec_fold W) _).trans (decT_apply _ _ _ r v)

/-- Operations leave unchanged every buffer none of them writes. -/
theorem thru {l : List (HloOp τ sig (Elt Ideal))}
    (hl : l.Forall fun op => op.writes ⊆ (HandRun.ops_W.map (Proc.devRef (τ := τ) .tc)).toFinset)
    (V : Valuation τ sig (Elt Ideal)) (r : Ref sig .tc) (h : r ∉ HandRun.ops_W) :
    after l V (no_index (Proc.devRef .tc r)) = V (Proc.devRef .tc r) :=
  after_of_writes_sub l V hl h

/-- `ln₂ (x₁ + ffn x₁)` with `x₁ = ln₁ (x + (z · Wₒ + bₒ))`, row-wise. -/
theorem post_row (s : Fin 1024) (b : Fin 4) :
    (fun e => after opsLn2 (after opsFfn (after opsLn1 (after opsZo W))) main_v80 (ix3 s b e))
      = Cert.Spec.outp (fun d => W main_v29 (ix3 s b d)) (fun d => W main_v6 (ix3 s b d)) (fun e d => W main_arg5 (ix2 e d))
          (fun e => W main_arg6 (ix1 e)) (fun e => W main_arg11 (ix1 e)) (fun e => W main_arg12 (ix1 e))
          (fun h d => W main_arg7 (ix2 h d)) (fun h => W main_arg8 (ix1 h)) (fun e h => W main_arg9 (ix2 e h))
          (fun e => W main_arg10 (ix1 e)) (fun e => W main_arg13 (ix1 e)) (fun e => W main_arg14 (ix1 e)) := by
  rw [ln2_row, ffn_row, ln1_row, zo_row]
  simp (disch := decide) only [thru HandRun.opsZo_writes, thru HandRun.opsLn1_writes, thru HandRun.opsFfn_writes]
  rfl

end Cert.ReferenceIdeal.HandV

end
-- ==== Proof.Val.RefAll.lean ====
import proofs.«424417_j2491081031820_3_alg».proof.Proof.Val.RefB

noncomputable section

namespace Cert.ReferenceIdeal.HandV

open Cert.ReferenceIdeal Cert.ReferenceIdeal.Gen Cert.ReferenceIdeal.HandRun
open Idealize.ShloMosaic Idealize.ShloMosaic.TcCoe Idealize.ShloMosaic.StableHlo Idealize.ShloMosaic.ValueIdx Idealize.SL.Sem

variable (W : Valuation τ sig (Elt Ideal))

theorem v6_thru_QKV : StableHlo.after opsQKV W main_v6 = W main_v6 := by after_results
theorem v6_thru_Att : StableHlo.after opsAtt W main_v6 = W main_v6 := by after_results

theorem att_row (q : Fin 1024) (b : Fin 4) :
    (fun d => StableHlo.after opsAtt W main_v29 (ix3 q b d))
      = Cert.Spec.zat (fun b s e => W main_v8 (ix3 b s e)) (fun b s e => W main_v10 (ix3 b s e))
          (fun b s e => W main_v12 (ix3 b s e)) b q :=
  funext (att_eq W q b)

/-- The logits: the decoder of the post block of the attention of the three projections of the embedding rows. -/
theorem ref_value (r : Fin 4096) (v : Fin 32000) :
    StableHlo.after ops W main_v86 (ix2 r v)
      = Cert.Spec.logits (fun r d => StableHlo.after opsEmb W main_v6 (ix3 (Cert.Spec.posOf r) (Cert.Spec.batchOf r) d))
        (fun e d => W main_arg2 (ix2 e d)) (fun e d => W main_arg3 (ix2 e d)) (fun e d => W main_arg4 (ix2 e d))
        (fun e d => W main_arg5 (ix2 e d)) (fun e => W main_arg6 (ix1 e)) (fun e => W main_arg11 (ix1 e))
        (fun e => W main_arg12 (ix1 e)) (fun h d => W main_arg7 (ix2 h d)) (fun h => W main_arg8 (ix1 h))
        (fun e h => W main_arg9 (ix2 e h)) (fun e => W main_arg10 (ix1 e)) (fun e => W main_arg13 (ix1 e))
        (fun e => W main_arg14 (ix1 e)) (fun v d => W main_arg15 (ix2 v d)) (fun v => W main_arg16 (ix1 v)) r v := by
  have hp : ∀ Wm : Fin 1024 → Fin 1024 → EReal,
      Cert.Spec.proj (fun r d => StableHlo.after opsEmb W main_v6 (ix3 (Cert.Spec.posOf r) (Cert.Spec.batchOf r) d)) Wm
        = fun b s e => Cert.Spec.lin (fun d => StableHlo.after opsEmb W main_v6 (ix3 s b d)) Wm e := fun Wm => by
    funext b s e
    simp only [Cert.Spec.proj, Cert.Spec.posOf_rowOf, Cert.Spec.batchOf_rowOf]
  simp only [ops, StableHlo.after_append]
  rw [dec_eq, post_row, att_row, (qkv_eq _).1, (qkv_eq _).2.1, (qkv_eq _).2.2, v6_thru_Att, v6_thru_QKV]
  simp (disch := decide) only [refProj_read, thru HandRun.opsEmb_writes, thru HandRun.opsQKV_writes,
    thru HandRun.opsAtt_writes, thru HandRun.opsZo_writes, thru HandRun.opsLn1_writes, thru HandRun.opsFfn_writes,
    thru HandRun.opsLn2_writes, Cert.Spec.logits, hp]

end Cert.ReferenceIdeal.HandV

end
-- ==== Proof.Val.KTake.lean ====
import proofs.«424417_j2491081031820_3_alg».proof.Proof.Gen.KernelIdeal.Regions
import proofs.«424417_j2491081031820_3_alg».proof.Proof.Gen.Pre_finite_inputs
import proofs.«424417_j2491081031820_3_alg».proof.Defs
import Idealize.ShloMosaic.Lib.ValueIdx
import Idealize.ShloMosaic.Lib.ReduceAll
import Idealize.ShloMosaic.Lib.Affine
import Idealize.ShloMosaic.Lib.StableHlo.Run

noncomputable section

namespace Cert.KernelIdeal.HandV

open Cert.KernelIdeal Cert.KernelIdeal.Gen Idealize.ShloMosaic Idealize.ShloMosaic.TcCoe Idealize.ShloMosaic.ValueIdx
open Idealize.ShloMosaic.StableHlo

/-- A word in [−32000, 32000), with 32000 added when it is negative, lies in [0, 31999]: the sum does not wrap. -/
theorem wrap_range (x : BitVec 32) (h0 : -32000 ≤ x.toInt) (h1 : x.toInt < 32000) :
    IntOp.cmpi .sge (Scalar.select (IntOp.cmpi .slt x 0#32) (IntOp.addi x 32000#32) x) 0#32 = 1#1
      ∧ IntOp.cmpi .sle (Scalar.select (IntOp.cmpi .slt x 0#32) (IntOp.addi x 32000#32) x) 31999#32 = 1#1 := by
  have z0 : (0#32 : BitVec 32).toInt = 0 := by decide
  have z1 : (32000#32 : BitVec 32).toInt = 32000 := by decide
  have z2 : (31999#32 : BitVec 32).toInt = 31999 := by decide
  rw [IntOp.cmpi_sge, IntOp.cmpi_sle, z0, z2]
  by_cases hc : IntOp.cmpi .slt x 0#32 = 1#1
  · have hneg := IntOp.cmpi_slt.1 hc
    rw [hc, select_one, show (IntOp.addi x 32000#32).toInt = x.toInt + 32000 by
      unfold IntOp.addi; rw [BitVec.toInt_add, z1]; exact Int.bmod_eq_of_le (by omega) (by omega)]
    omega
  · have hneg := mt IntOp.cmpi_slt.2 hc
    rw [eq_zero_of_ne_one hc, select_zero]
    omega

theorem foldl_andi_ones {ι : Type} (f : ι → BitVec 1) (hf : ∀ n, f n = 1#1) :
    ∀ l : List ι, l.foldl (fun r n => IntOp.andi r (f n)) 1#1 = 1#1
  | [] => rfl
  | a :: l => by rw [List.foldl_cons, hf a]; exact foldl_andi_ones f hf l

/-- An and-reduction of set bits, started from a set bit, is set. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]; exact foldl_andi_ones x hx _

instance : Subsingleton Cert.Pre_finite_inputs.S_.Idx := ⟨fun a b => funext fun d => d.elim0⟩

/-- Every embedding index lies in [−32000, 32000): the precondition's last two conjuncts, read at an index. -/
theorem idx_range [Cert.Pre_finite_inputs.Facts] (m : (ℓ : Loc nD τ sig) → Buf (Elt Ideal) ℓ) (hpre : Cert.Pre_KernelIdeal m)
    (c : Dev nD) (i : S1024x4.Idx) :
    -32000 ≤ (m ((c.tc : Thread nD τ).loc main_arg0) i).toInt ∧ (m ((c.tc : Thread nD τ).loc main_arg0) i).toInt < 32000 := by
  have e := congrFun (hpre c) ValueIdx.ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5 at e
  dsimp only at e
  obtain ⟨h82, h85⟩ := IntOp.andi_eq_one.1 e
  exact ⟨IntOp.cmpi_sge.1 (Host.reduce_andi_all _ _ _ _ _ (IntOp.andi_eq_one.1 h82).2 i),
    IntOp.cmpi_slt.1 (Host.reduce_andi_all _ _ _ _ _ h85 i)⟩

abbrev wrapped (idx : IVec S1024x4 32) : IVec S1024x4x1 32 :=
  broadcastInDim S1024x4x1 ![0, 1] bcast_S1024x4_S1024x4x1_0_1
    (select (cmpi .slt idx (broadcastInDim S1024x4 ![] bcast_S_S1024x4 (constantI S_ 32 0#32)))
      (addi idx (broadcastInDim S1024x4 ![] bcast_S_S1024x4 (constantI S_ 32 32000#32))) idx)

abbrev inTable (idx : IVec S1024x4 32) : IVec S1024x4x1 1 :=
  andi (cmpi .sge (wrapped idx) (broadcastInDim S1024x4x1 ![] bcast_S_S1024x4x1 (constantI S_ 32 0#32)))
    (cmpi .sle (wrapped idx) (broadcastInDim S1024x4x1 ![0, 1, 2] bcast_S1x1x1_S1024x4x1_0_1_2
      (broadcastInDim S1x1x1 ![2] bcast_S1_S1x1x1_2 (constantI S1 32 31999#32))))

theorem ops0_v0 (W : Valuation τ sig (Elt Ideal)) : (StableHlo.after Gen.hostOps0 W main_v0 : S1024x4x1024.Idx → EReal)
    = select (broadcastInDim S1024x4x1024 ![0, 1] bcast_S1024x4_S1024x4x1024_0_1
          (Host.reduce IntOp.andi (inTable (W main_arg0 : IVec S1024x4 32)) (constantI S_ 1 1#1) reducesTo_S1024x4x1_S1024x4_d2 h_S_))
        (Host.gather gather_S32000x1024_S1024x4x1_S1024x4x1024_2_0_n_n_0_2_11024 (W main_arg1 : S32000x1024.Idx → EReal)
          (wrapped (W main_arg0 : IVec S1024x4 32)))
        (broadcastInDim S1024x4x1024 ![] bcast_S_S1024x4x1024 (constant (F := Ideal) S_ .f32 0x7FC00000#32)) := by
  dsimp only [Gen.hostOps0]
  after_results_simp
  simp only [TRef.ofBuf, TRef.toBuf, cast_eq]
  all_goals rfl

/-- Under the precondition every row read lies in the table, so the lookup is the gather alone. -/
theorem take_eq [Cert.Pre_finite_inputs.Facts] (m : (ℓ : Loc nD τ sig) → Buf (Elt Ideal) ℓ) (hpre : Cert.Pre_KernelIdeal m) (c : Dev nD) :
    Gen.V1 m c main_v0 = Host.gather gather_S32000x1024_S1024x4x1_S1024x4x1024_2_0_n_n_0_2_11024
      (m ((c.tc : Thread nD τ).loc main_arg1)) (wrapped (m ((c.tc : Thread nD τ).loc main_arg0))) := by
  refine (ops0_v0 (Gen.V0 m c)).trans (funext fun j => ?_)
  rw [select_apply]
  exact (congrArg (Scalar.select · _ _) (reduce_andi_ones _ _ _ _ (fun i => IntOp.andi_eq_one.2
    (wrap_range _ (idx_range m hpre c _).1 (idx_range m hpre c _).2)) rfl _)).trans (select_one _ _)

end Cert.KernelIdeal.HandV

end
-- ==== Proof.Val.Bridge.lean ====
import proofs.«424417_j2491081031820_3_alg».proof.Proof.Val.KTake
import proofs.«424417_j2491081031820_3_alg».proof.Proof.Val.RefA
import proofs.«424417_j2491081031820_3_alg».proof.Defs

noncomputable section

namespace Cert.Proof.Bridge

open Idealize.ShloMosaic Idealize.ShloMosaic.TcCoe Idealize.SL.Sem Idealize.ShloMosaic.StableHlo

/-- Both programs gather the table's rows at the token indices brought into range, and spell that with the same literals. -/
theorem emb_bridge [Cert.Pre_finite_inputs.Facts]
    (m : (ℓ : Loc Cert.KernelIdeal.nD Cert.KernelIdeal.τ Cert.KernelIdeal.sig) → Buf (Elt Ideal) ℓ)
    (hpre : Cert.Pre_KernelIdeal m)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    StableHlo.after Cert.ReferenceIdeal.HandRun.opsEmb (StableHlo.launchContents m' c) (Proc.devRef .tc Cert.ReferenceIdeal.main_v6)
      = Cert.KernelIdeal.Gen.V1 m c (Proc.devRef .tc Cert.KernelIdeal.main_v0) := by
  rw [Cert.KernelIdeal.HandV.take_eq m hpre c, ← h0, ← h1]
  exact Cert.ReferenceIdeal.HandV.emb_eq (StableHlo.launchContents m' c)

end Cert.Proof.Bridge

end
-- ==== Proof.Val.Algebraic.lean ====
import proofs.«424417_j2491081031820_3_alg».proof.Defs
import proofs.«424417_j2491081031820_3_alg».proof.Proof.Gen.KernelIdeal
import proofs.«424417_j2491081031820_3_alg».proof.Proof.Gen.ReferenceIdeal
import proofs.«424417_j2491081031820_3_alg».proof.Proof.Gen.Pre_finite_inputs
import proofs.«424417_j2491081031820_3_alg».proof.Proof.Gen.KernelIdeal.Regions
import proofs.«424417_j2491081031820_3_alg».proof.Proof.KI.Outs
import proofs.«424417_j2491081031820_3_alg».proof.Proof.KI.RunAll
import proofs.«424417_j2491081031820_3_alg».proof.Proof.Ref.Run
import proofs.«424417_j2491081031820_3_alg».proof.Proof.Val.KAll
import proofs.«424417_j2491081031820_3_alg».proof.Proof.Val.RefAll
import proofs.«424417_j2491081031820_3_alg».proof.Proof.Val.Bridge
import proofs.«424417_j2491081031820_3_alg».proof.Proof.Spec
import Idealize.ShloMosaic.Lib.ValueIdx

set_option maxRecDepth 16384

noncomputable section

open Idealize.ShloMosaic Idealize.ShloMosaic.TcCoe Idealize.SL.Sem Idealize.ShloMosaic.ValueIdx

namespace Cert.Proof

theorem logits_congr {X X' : Fin 4096 → Fin 1024 → EReal} {WQ WQ' WK WK' WV WV' Wo Wo' : Fin 1024 → Fin 1024 → EReal}
    {bo bo' g1 g1' be1 be1' : Fin 1024 → EReal} {W1 W1' : Fin 4096 → Fin 1024 → EReal} {b1 b1' : Fin 4096 → EReal}
    {W2 W2' : Fin 1024 → Fin 4096 → EReal} {b2 b2' g2 g2' be2 be2' : Fin 1024 → EReal}
    {Wd Wd' : Fin 32000 → Fin 1024 → EReal} {bd bd' : Fin 32000 → EReal} (r : Fin 4096) (v : Fin 32000)
    (hX : X = X') (hWQ : WQ = WQ') (hWK : WK = WK') (hWV : WV = WV') (hWo : Wo = Wo') (hbo : bo = bo') (hg1 : g1 = g1')
    (hbe1 : be1 = be1') (hW1 : W1 = W1') (hb1 : b1 = b1') (hW2 : W2 = W2') (hb2 : b2 = b2') (hg2 : g2 = g2')
    (hbe2 : be2 = be2') (hWd : Wd = Wd') (hbd : bd = bd') :
    Cert.Spec.logits X WQ WK WV Wo bo g1 be1 W1 b1 W2 b2 g2 be2 Wd bd r v
      = Cert.Spec.logits X' WQ' WK' WV' Wo' bo' g1' be1' W1' b1' W2' b2' g2' be2' Wd' bd' r v := by
  subst hX hWQ hWK hWV hWo hbo hg1 hbe1 hW1 hb1 hW2 hb2 hg2 hbe2 hWd hbd; rfl

/-- Both results are the layer's logits of arrays that agree: the gathered embeddings and the sixteen parameters. -/
theorem algebraic : Cert.algebraic_KernelIdeal_ReferenceIdeal := by
  intro m g m' g' hpre hagree
  refine ⟨fun c => Cert.KernelIdeal.Gen.V9 m (Cert.KernelIdeal.Hand.outsD m) c Cert.KernelIdeal.main_v26, ?_, ?_⟩
  · exact Cert.KernelIdeal.Hand.runArgs (F := Ideal) m _ g (Cert.KernelIdeal.Hand.outsD_ok m)
  · refine (θ_run Cert.ReferenceIdeal.defs _ _).mono (fun r h c => ?_) (Cert.ReferenceIdeal.HandRun.run_all (F := Ideal) m' g')
    obtain ⟨a0, a1, a2, a3, a4, a5, a6, a7, a8, a9, a10, a11, a12, a13, a14, a15, a16⟩ := hagree c
    refine ⟨(h c Cert.ReferenceIdeal.main_v86).trans ?_, by
      and_intros <;> exact (h c _).trans (Cert.ReferenceIdeal.HandRun.kept _ _ (by decide))⟩
    funext i
    obtain ⟨r, v, rfl⟩ : ∃ (r : Fin 4096) (v : Fin 32000), i = ix2 r v := ⟨i 0, i 1, eq_ix2 i⟩
    refine (Cert.ReferenceIdeal.HandV.ref_value (StableHlo.launchContents m' c) r v).trans
      (Eq.trans ?_ (Cert.KernelIdeal.HandV.kernel_value m (Cert.KernelIdeal.Hand.outsD m) (Cert.KernelIdeal.Hand.outsD_ok m) c r v).symm)
    exact logits_congr r v
      (funext fun _ => funext fun _ => congrFun (Cert.Proof.Bridge.emb_bridge m hpre m' c a0 a1) _)
      (funext fun _ => funext fun _ => congrFun a2 _)
      (funext fun _ => funext fun _ => congrFun a3 _)
      (funext fun _ => funext fun _ => congrFun a4 _)
      (funext fun _ => funext fun _ => congrFun a5 _)
      (funext fun _ => congrFun a6 _)
      (funext fun _ => congrFun a11 _)
      (funext fun _ => congrFun a12 _)
      (funext fun _ => funext fun _ => congrFun a7 _)
      (funext fun _ => congrFun a8 _)
      (funext fun _ => funext fun _ => congrFun a9 _)
      (funext fun _ => congrFun a10 _)
      (funext fun _ => congrFun a13 _)
      (funext fun _ => congrFun a14 _)
      (funext fun _ => funext fun _ => congrFun a15 _)
      (funext fun _ => congrFun a16 _)

end Cert.Proof

end
-- ==== Proof.lean ====
/-
  A one-layer transformer (embedding rows gathered by token, one attention head per batch, output projection with
  residual and layer norm, feed-forward block with residual and layer norm, product with the vocabulary matrix) as
  four row-blocked kernels, against the same layer in whole-array operations. Over the extended reals both compute
  the layer's logits, one formula stated over plain index types.
-/
import proofs.«424417_j2491081031820_3_alg».proof.Proof.KB.Frame
import proofs.«424417_j2491081031820_3_alg».proof.Proof.Ref.Run
import proofs.«424417_j2491081031820_3_alg».proof.Proof.Val.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => Cert.ReferenceIdeal.HandRun.frame m ρ,
    trivial,
    Cert.Proof.algebraic⟩

end Cert.Proof

end
